-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "eps_ref_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg1 : IVec S1024 32) (main_v13 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v13 main_v16
  let main_c_6 : IVec S_ 32 := constantI S_ 32 100000#32
  let main_v18 : IVec S1024 32 := broadcastInDim S1024 ![] bcast_S_S1024 main_c_6
  let main_v19 : IVec S1024 1 := cmpi .slt main_arg1 main_v18
  let main_c_7 : IVec S_ 1 := constantI S_ 1 1#1
  let main_v20 : IVec S_ 1 := (fun x v => Host.reduce IntOp.andi x v reducesTo_S1024_S_d0 h_S_) main_v19 main_c_7
  let main_v21 : IVec S_ 1 := andi main_v17 main_v20
  main_v21

def fn {F : FTy → Type} [FloatOps F] (main_arg0 : FVec F S1024x512 .f32) (main_arg1 : IVec S1024 32) (main_arg2 : FVec F S100000x512 .f32) (main_arg3 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S100000x512 .f32 := Host.absf main_arg3
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_c_4 : IVec S_ 32 := constantI S_ 32 0#32
  let main_v14 : IVec S1024 32 := broadcastInDim S1024 ![] bcast_S_S1024 main_c_4
  let main_v15 : IVec S1024 1 := cmpi .sge main_arg1 main_v14
  let main_c_5 : IVec S_ 1 := constantI S_ 1 1#1
  fn_part1 (F := F) main_arg1 main_v13 main_v15 main_c_5
-- ==== Kernel.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S2x1024x1 : Shape := ⟨3, ![2, 1024, 1]⟩
abbrev S1000x512 : Shape := ⟨2, ![1000, 512]⟩
abbrev S1x1024x1 : Shape := ⟨3, ![1, 1024, 1]⟩
abbrev S1000 : Shape := ⟨1, ![1000]⟩
abbrev S1000x1 : Shape := ⟨2, ![1000, 1]⟩
abbrev S1024x1000 : Shape := ⟨2, ![1024, 1000]⟩
abbrev S1 : Shape := ⟨1, ![1]⟩

abbrev nBuf : Space → Nat
  | .hbm => 115
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S100000x512, .f32⟩
  | .hbm, ⟨4, _⟩ => ⟨S1024x512, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x512, .f32⟩
  | .hbm, ⟨13, _⟩ => ⟨S1024x512, .f32⟩
  | .hbm, ⟨14, _⟩ => ⟨S1024x512, .bf16⟩
  | .hbm, ⟨15, _⟩ => ⟨S1024x1, .i32⟩
  | .hbm, ⟨16, _⟩ => ⟨S2x1024x1, .f32⟩
  | .hbm, ⟨17, _⟩ => ⟨S2x1024x1, .f32⟩
  | .hbm, ⟨18, _⟩ => ⟨S2x1024x1, .f32⟩
  | .hbm, ⟨19, _⟩ => ⟨S1x1024x1, .f32⟩
  | .hbm, ⟨20, _⟩ => ⟨S1024, .f32⟩
  | .hbm, ⟨21, _⟩ => ⟨S1x1024x1, .f32⟩
  | .hbm, ⟨22, _⟩ => ⟨S1024, .f32⟩
  | .hbm, ⟨23, _⟩ => ⟨S1x1024x1, .f32⟩
  | .hbm, ⟨24, _⟩ => ⟨S1024, .f32⟩
  | .hbm, ⟨25, _⟩ => ⟨S1x1024x1, .f32⟩
  | .hbm, ⟨26, _⟩ => ⟨S1024, .f32⟩
  | .hbm, ⟨27, _⟩ => ⟨S1x1024x1, .f32⟩
  | .hbm, ⟨28, _⟩ => ⟨S1024, .f32⟩
  | .hbm, ⟨29, _⟩ => ⟨S1x1024x1, .f32⟩
  | .hbm, ⟨30, _⟩ => ⟨S1024, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .i32⟩
  | .hbm, ⟨54, _⟩ => ⟨S1024, .i32⟩
  | .hbm, ⟨55, _⟩ => ⟨S1024, .i1⟩
  | .hbm, ⟨56, _⟩ => ⟨S_, .i32⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S1024x1, .i32⟩
  | .hbm, ⟨61, _⟩ => ⟨S1024x512, .f32⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S_, .i32⟩
  | .hbm, ⟨66, _⟩ => ⟨S1024, .i32⟩
  | .hbm, ⟨67, _⟩ => ⟨S1024, .i32⟩
  | .hbm, ⟨68, _⟩ => ⟨S1024, .i32⟩
  | .hbm, ⟨69, _⟩ => ⟨S1024x1, .i32⟩
  | .hbm, ⟨70, _⟩ => ⟨S1024x512, .f32⟩
  | .hbm, ⟨71, _⟩ => ⟨S1024x512, .f32⟩
  | .hbm, ⟨72, _⟩ => ⟨S_, .f32⟩
  | .hbm, ⟨73, _⟩ => ⟨S1024, .f32⟩
  | .hbm, ⟨74, _⟩ => ⟨S1024x1, .f32⟩
  | .hbm, ⟨75, _⟩ => ⟨S1024x1, .f32⟩
  | .hbm, ⟨76, _⟩ => ⟨S_, .f32⟩
  | .hbm, ⟨77, _⟩ => ⟨S1024x1, .f32⟩
  | .hbm, ⟨78, _⟩ => ⟨S1024x1, .f32⟩
  | .hbm, ⟨79, _⟩ => ⟨S1024x512, .f32⟩
  | .hbm, ⟨80, _⟩ => ⟨S1024x512, .f32⟩
  | .hbm, ⟨81, _⟩ => ⟨S1024x512, .f32⟩
  | .hbm, ⟨82, _⟩ => ⟨S1024x512, .f32⟩
  | .hbm, ⟨83, _⟩ => ⟨S_, .f32⟩
  | .hbm, ⟨84, _⟩ => ⟨S1024, .f32⟩
  | .hbm, ⟨85, _⟩ => ⟨S1024x1, .f32⟩
  | .hbm, ⟨86, _⟩ => ⟨S1024x1, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1024x1, .f32⟩
  | .hbm, ⟨91, _⟩ => ⟨S1024x1, .f32⟩
  | .hbm, ⟨92, _⟩ => ⟨S_, .f32⟩
  | .hbm, ⟨93, _⟩ => ⟨S1024x1, .f32⟩
  | .hbm, ⟨94, _⟩ => ⟨S1024x1, .f32⟩
  | .hbm, ⟨95, _⟩ => ⟨S_, .f32⟩
  | .hbm, ⟨96, _⟩ => ⟨S1024x1, .f32⟩
  | .hbm, ⟨97, _⟩ => ⟨S1024x1, .f32⟩
  | .hbm, ⟨98, _⟩ => ⟨S1024x512, .f32⟩
  | .hbm, ⟨99, _⟩ => ⟨S1024x512, .f32⟩
  | .hbm, ⟨100, _⟩ => ⟨S1024x512, .f32⟩
  | .hbm, ⟨101, _⟩ => ⟨S1024x512, .f32⟩
  | .hbm, ⟨102, _⟩ => ⟨S1024x512, .f32⟩
  | .hbm, ⟨103, _⟩ => ⟨S1024x512, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S1, .f32⟩
  | .local _ .vmem, ⟨0, _⟩ => ⟨S1024x512, .bf16⟩
  | .local _ .vmem, ⟨1, _⟩ => ⟨S1000x512, .f32⟩
  | .local _ .vmem, ⟨2, _⟩ => ⟨S1000x512, .f32⟩
  | .local _ .vmem, ⟨3, _⟩ => ⟨S1024x1, .i32⟩
  | .local _ .vmem, ⟨4, _⟩ => ⟨S1x1024x1, .f32⟩
  | .local _ .vmem, ⟨5, _⟩ => ⟨S1x1024x1, .f32⟩
  | .local _ .vmem, ⟨6, _⟩ => ⟨S1x1024x1, .f32⟩
  | .local _ .vmem, ⟨7, _⟩ => ⟨S1x1024x1, .f32⟩
  | .local _ .vmem, ⟨8, _⟩ => ⟨S1x1024x1, .f32⟩
  | .local _ .vmem, ⟨9, _⟩ => ⟨S1x1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_5 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_cst_11 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v61 : BitVec 1 := Scalar.cmpi .eq arg1 c49_i32
  let v62 : BitVec 32 := Scalar.extui v61
  let c0_i32_28 : BitVec 32 := 0#32
  let v63 : BitVec 1 := Scalar.cmpi .ne v62 c0_i32_28
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1000x512_S1000x512_0_0 : ∀ a, (![0, 0] : Fin 2 → Nat) a + S1000x512.size a ≤ S1000x512.size a
  h_S1000x512 : 0 < S1000x512.numel
  reduces_S1000x512_S1000 : S1000x512.Reduces [1] S1000
  shapeCasts_S1000_S1000x1 : S1000.ShapeCasts S1000x1
  broadcasts_S1000x1_S1000x512 : S1000x1.Broadcasts S1000x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1024x1000_d1_w32 : S1024x1000.Iotas .tc 32 [1]
  broadcasts_S1024x1_S1024x1000 : S1024x1.Broadcasts S1024x1000
  reduces_S1024x1000_S1024 : S1024x1000.Reduces [1] S1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  slices_S2x1024x1_S1x1024x1_0_0_0 : S2x1024x1.Slices ![0, 0, 0] S1x1024x1
  shapeCasts_S1x1024x1_S1024 : S1x1024x1.ShapeCasts S1024
  slices_S2x1024x1_S1x1024x1_1_0_0 : S2x1024x1.Slices ![1, 0, 0] S1x1024x1
  reducesTo_S1024_S_d0 : S1024.ReducesTo [0] S_
  bcast_S_S1024 : S_.BroadcastsInDim S1024 (![] : Fin 0 → Fin S1024.rank)
  bcast_S_S1 : S_.BroadcastsInDim S1 (![] : Fin 0 → Fin S1.rank)
  dot_S1024x512_S1000x512_S1024x1000_1_1_0_0_n_n_wf : DotDims.WF S1024x512 S1000x512 S1024x1000 [1] [1] [0] [0] [] []
  gather_S100000x512_S1024x1_S1024x512_1_0_n_n_0_1_1512_wf : GatherDims.WF S100000x512 S1024x1 S1024x512 [1] [0] [] [0] [] 1 ![1, 512]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x512.size a
  hwx0_0 : ∀ i : grid0.Coords, EltTy.bits .bf16 = 32 ∨ (Rect.block (s := S1024x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S100000x512.size a
  hwx0_1 : ∀ i : grid0.Coords, EltTy.bits .f32 = 32 ∨ (Rect.block (s := S100000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S2x1024x1.size a
  hwx0_3 : ∀ i : grid0.Coords, EltTy.bits .f32 = 32 ∨ (Rect.block (s := S2x1024x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1.size a ≤ S2x1024x1.size a
  hwx0_4 : ∀ i : grid0.Coords, EltTy.bits .f32 = 32 ∨ (Rect.block (s := S2x1024x1) S1x1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1.size a ≤ S2x1024x1.size a
  hwx0_5 : ∀ i : grid0.Coords, EltTy.bits .f32 = 32 ∨ (Rect.block (s := S2x1024x1) S1x1024x1.size (cc0_transform_5 i) (hinb0_5 i)).WholeWords (EltTy.packing .f32)

variable [Facts₀]

def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf
def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf

abbrev win0_0 : Pipeline.Window sig grid0 :=
  Pipeline.Window.ofSpec (Memref.whole main_v8) S1024x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_2) S1x1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S512x100000 : Shape := ⟨2, ![512, 100000]⟩
abbrev S1024x100000 : Shape := ⟨2, ![1024, 100000]⟩
abbrev S1024x2 : Shape := ⟨2, ![1024, 2]⟩
abbrev S1 : Shape := ⟨1, ![1]⟩

abbrev nBuf : Space → Nat
  | .hbm => 146
  | .vmem => 0
  | .smem => 0
  | _ => 0

abbrev hbmTy0_0 (i : Nat) : BufTy := match i % 128 with
  | 0 => ⟨S1024x512, .f32⟩
  | 1 => ⟨S1024, .i32⟩
  | 2 => ⟨S100000x512, .f32⟩
  | 3 => ⟨S100000x512, .f32⟩
  | 4 => ⟨S1024x512, .f32⟩
  | 5 => ⟨S_, .f32⟩
  | 6 => ⟨S1024, .f32⟩
  | 7 => ⟨S1024x1, .f32⟩
  | 8 => ⟨S1024x1, .f32⟩
  | 9 => ⟨S_, .f32⟩
  | 10 => ⟨S1024x1, .f32⟩
  | 11 => ⟨S1024x1, .f32⟩
  | 12 => ⟨S1024x512, .f32⟩
  | 13 => ⟨S1024x512, .f32⟩
  | 14 => ⟨S100000x512, .f32⟩
  | 15 => ⟨S_, .f32⟩
  | 16 => ⟨S100000, .f32⟩
  | 17 => ⟨S100000x1, .f32⟩
  | 18 => ⟨S100000x1, .f32⟩
  | 19 => ⟨S_, .f32⟩
  | 20 => ⟨S100000x1, .f32⟩
  | 21 => ⟨S100000x1, .f32⟩
  | 22 => ⟨S100000x512, .f32⟩
  | 23 => ⟨S100000x512, .f32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S1024x512, .f32⟩
  | 33 => ⟨S1024x512, .f32⟩
  | 34 => ⟨S_, .i32⟩
  | 35 => ⟨S1024, .i32⟩
  | 36 => ⟨S1024, .i1⟩
  | 37 => ⟨S_, .i32⟩
  | 38 => ⟨S1024, .i32⟩
  | 39 => ⟨S1024, .i32⟩
  | 40 => ⟨S1024, .i32⟩
  | 41 => ⟨S1024x1, .i32⟩
  | 42 => ⟨S1024x512, .f32⟩
  | 43 => ⟨S1024x512, .f32⟩
  | 44 => ⟨S_, .f32⟩
  | 45 => ⟨S1024, .f32⟩
  | 46 => ⟨S1024x1, .f32⟩
  | 47 => ⟨S1024x1, .f32⟩
  | 48 => ⟨S_, .f32⟩
  | 49 => ⟨S_, .f32⟩
  | 50 => ⟨S_, .f32⟩
  | 51 => ⟨S1024x1, .f32⟩
  | 52 => ⟨S1024x1, .f32⟩
  | 53 => ⟨S_, .f32⟩
  | 54 => ⟨S1024x1, .f32⟩
  | 55 => ⟨S1024x1, .f32⟩
  | 56 => ⟨S_, .f32⟩
  | 57 => ⟨S1024x1, .f32⟩
  | 58 => ⟨S1024x1, .f32⟩
  | 59 => ⟨S1024x512, .f32⟩
  | 60 => ⟨S1024x512, .f32⟩
  | 61 => ⟨S1024x512, .f32⟩
  | 62 => ⟨S1024x512, .f32⟩
  | 63 => ⟨S1024x512, .f32⟩
  | 64 => ⟨S1024x512, .f32⟩
  | 65 => ⟨S_, .f32⟩
  | 66 => ⟨S1024, .f32⟩
  | 67 => ⟨S1024, .f32⟩
  | 68 => ⟨S_, .f32⟩
  | 69 => ⟨S_, .f32⟩
  | 70 => ⟨S_, .f32⟩
  | 71 => ⟨S_, .f32⟩
  | 72 => ⟨S512x100000, .f32⟩
  | 73 => ⟨S1024x100000, .f32⟩
  | 74 => ⟨S1024, .i32⟩
  | 75 => ⟨S_, .i32⟩
  | 76 => ⟨S1024, .i32⟩
  | 77 => ⟨S1024, .i1⟩
  | 78 => ⟨S_, .i32⟩
  | 79 => ⟨S1024, .i32⟩
  | 80 => ⟨S1024, .i32⟩
  | 81 => ⟨S1024, .i32⟩
  | 82 => ⟨S_, .i32⟩
  | 83 => ⟨S1024, .i32⟩
  | 84 => ⟨S1024, .i1⟩
  | 85 => ⟨S_, .i32⟩
  | 86 => ⟨S1024, .i32⟩
  | 87 => ⟨S1024, .i32⟩
  | 88 => ⟨S1024, .i32⟩
  | 89 => ⟨S1024x1, .i32⟩
  | 90 => ⟨S1024x1, .i32⟩
  | 91 => ⟨S1024x2, .i32⟩
  | 92 => ⟨S_, .f32⟩
  | 93 => ⟨S1024, .f32⟩
  | 94 => ⟨S1024x100000, .f32⟩
  | 95 => ⟨S_, .f32⟩
  | 96 => ⟨S1024x100000, .f32⟩
  | 97 => ⟨S1024x100000, .f32⟩
  | 98 => ⟨S_, .f32⟩
  | 99 => ⟨S1024, .f32⟩
  | 100 => ⟨S_, .f32⟩
  | 101 => ⟨S1024, .f32⟩
  | 102 => ⟨S1024, .f32⟩
  | 103 => ⟨S1024x1, .f32⟩
  | 104 => ⟨S1024x100000, .f32⟩
  | 105 => ⟨S1024x100000, .f32⟩
  | 106 => ⟨S1024x100000, .f32⟩
  | 107 => ⟨S_, .f32⟩
  | 108 => ⟨S1024, .f32⟩
  | 109 => ⟨S1024x1, .f32⟩
  | 110 => ⟨S1024x1, .f32⟩
  | 111 => ⟨S1024x100000, .f32⟩
  | 112 => ⟨S1024x100000, .f32⟩
  | 113 => ⟨S_, .i32⟩
  | 114 => ⟨S1024, .i32⟩
  | 115 => ⟨S1024, .i1⟩
  | 116 => ⟨S_, .i32⟩
  | 117 => ⟨S1024, .i32⟩
  | 118 => ⟨S1024, .i32⟩
  | 119 => ⟨S1024, .i32⟩
  | 120 => ⟨S_, .i32⟩
  | 121 => ⟨S1024, .i32⟩
  | 122 => ⟨S1024, .i1⟩
  | 123 => ⟨S_, .i32⟩
  | 124 => ⟨S1024, .i32⟩
  | 125 => ⟨S1024, .i32⟩
  | 126 => ⟨S1024, .i32⟩
  | 127 => ⟨S1024x1, .i32⟩
  | _ => ⟨S1024x512, .f32⟩

abbrev hbmTy0_1 (i : Nat) : BufTy := match i % 128 with
  | 0 => ⟨S1024x1, .i32⟩
  | 1 => ⟨S1024x2, .i32⟩
  | 2 => ⟨S1024, .f32⟩
  | 3 => ⟨S1024, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S1, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_cst_8 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_v35 : Ref sig .tc := ⟨.hbm, 55, rfl⟩
abbrev main_cst_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_cst_11 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_13 : Ref sig .tc := ⟨.hbm, 75, rfl⟩
abbrev main_v51 : Ref sig .tc := ⟨.hbm, 76, rfl⟩
abbrev main_v52 : Ref sig .tc := ⟨.hbm, 77, rfl⟩
abbrev main_c_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_15 : Ref sig .tc := ⟨.hbm, 82, rfl⟩
abbrev main_v56 : Ref sig .tc := ⟨.hbm, 83, rfl⟩
abbrev main_v57 : Ref sig .tc := ⟨.hbm, 84, rfl⟩
abbrev main_c_16 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_17 : Ref sig .tc := ⟨.hbm, 92, rfl⟩
abbrev main_v64 : Ref sig .tc := ⟨.hbm, 93, rfl⟩
abbrev main_v65 : Ref sig .tc := ⟨.hbm, 94, rfl⟩
abbrev main_cst_18 : Ref sig .tc := ⟨.hbm, 95, rfl⟩
abbrev main_v66 : Ref sig .tc := ⟨.hbm, 96, rfl⟩
abbrev main_v67 : Ref sig .tc := ⟨.hbm, 97, rfl⟩
abbrev main_call1_cst : Ref sig .tc := ⟨.hbm, 98, rfl⟩
abbrev main_call1_v0 : Ref sig .tc := ⟨.hbm, 99, rfl⟩
abbrev main_call1_cst_0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_call1_v5 : Ref sig .tc := ⟨.hbm, 105, rfl⟩
abbrev main_call1_v6 : Ref sig .tc := ⟨.hbm, 106, rfl⟩
abbrev main_call1_cst_1 : Ref sig .tc := ⟨.hbm, 107, rfl⟩
abbrev main_call1_v7 : Ref sig .tc := ⟨.hbm, 108, rfl⟩
abbrev main_call1_v8 : Ref sig .tc := ⟨.hbm, 109, rfl⟩
abbrev main_call1_v9 : Ref sig .tc := ⟨.hbm, 110, rfl⟩
abbrev main_call1_v10 : Ref sig .tc := ⟨.hbm, 111, rfl⟩
abbrev main_v68 : Ref sig .tc := ⟨.hbm, 112, rfl⟩
abbrev main_c_19 : Ref sig .tc := ⟨.hbm, 113, rfl⟩
abbrev main_v69 : Ref sig .tc := ⟨.hbm, 114, rfl⟩
abbrev main_v70 : Ref sig .tc := ⟨.hbm, 115, rfl⟩
abbrev main_c_20 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c_21 : Ref sig .tc := ⟨.hbm, 120, rfl⟩
abbrev main_v74 : Ref sig .tc := ⟨.hbm, 121, rfl⟩
abbrev main_v75 : Ref sig .tc := ⟨.hbm, 122, rfl⟩
abbrev main_c_22 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_23 : Ref sig .tc := ⟨.hbm, 132, rfl⟩
abbrev main_v84 : Ref sig .tc := ⟨.hbm, 133, rfl⟩
abbrev main_cst_24 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_cst_25 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_26 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  bcast_S_S1024 : S_.BroadcastsInDim S1024 (![] : Fin 0 → Fin S1024.rank)
  reducesTo_S1024_S_d0 : S1024.ReducesTo [0] S_
  transposes_S100000x512_S512x100000_1_0 : S100000x512.Transposes [1, 0] S512x100000
  concatenates_S1024x1_S1024x1_S1024x2_d1 : Shape.Concatenates [S1024x1, S1024x1] S1024x2 1
  bcast_S_S1024x100000 : S_.BroadcastsInDim S1024x100000 (![] : Fin 0 → Fin S1024x100000.rank)
  reducesTo_S1024x100000_S1024_d1 : S1024x100000.ReducesTo [1] S1024
  bcast_S1024x1_S1024x100000_0_1 : S1024x1.BroadcastsInDim S1024x100000 (![0, 1] : Fin 2 → Fin S1024x100000.rank)
  bcast_S_S1 : S_.BroadcastsInDim S1 (![] : Fin 0 → Fin S1.rank)
  gather_S100000x512_S1024x1_S1024x512_1_0_n_n_0_1_1512_wf : GatherDims.WF S100000x512 S1024x1 S1024x512 [1] [0] [] [0] [] 1 ![1, 512]
  dot_S1024x512_S512x100000_S1024x100000_1_0_0_1_n_n_wf : DotDims.WF S1024x512 S512x100000 S1024x100000 [1] [0] [0] [1] [] []
  scatter_S1024x100000_S1024x2_S1024_n_01_01_1_wf : ScatterDims.WF S1024x100000 S1024x2 S1024 [] [0, 1] [0, 1] 1
  gather_S1024x100000_S1024x2_S1024_n_01_n_n_01_1_11_wf : GatherDims.WF S1024x100000 S1024x2 S1024 [] [0, 1] [] [0, 1] [] 1 ![1, 1]

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf
def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf
def gather_S1024x100000_S1024x2_S1024_n_01_n_n_01_1_11 : GatherDims S1024x100000 S1024x2 S1024 where
  offsetDims := []
  collapsedSliceDims := [0, 1]
  operandBatchingDims := []
  startIndicesBatchingDims := []
  startIndexMap := [0, 1]
  indexVectorDim := 1
  sliceSizes := ![1, 1]
  wf := gather_S1024x100000_S1024x2_S1024_n_01_n_n_01_1_11_wf

class Facts : Prop extends Facts₀ where

variable [Facts]
-- ==== Proof.KBase.lean ====
import proofs.«422824_j5205500363383_3_alg».proof.Proof.Gen.Kernel.Launch
import proofs.«422824_j5205500363383_3_alg».proof.Proof.Gen.Kernel.Skeleton
import proofs.«422824_j5205500363383_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

theorem forall_flatten3 {α : Type} (p : α → Prop) (l1 l2 l3 : List α) (h1 : l1.Forall p) (h2 : l2.Forall p) (h3 : l3.Forall p) :
    ∀ x ∈ [l1, l2, l3].flatten, p x := by
  intro x hx
  simp only [List.flatten_cons, List.flatten_nil, List.append_nil, List.mem_append] at hx
  rcases hx with h | h | h
  · exact List.forall_iff_forall_mem.mp h1 x h
  · exact List.forall_iff_forall_mem.mp h2 x h
  · exact List.forall_iff_forall_mem.mp h3 x h

theorem forall_flatten1 {α : Type} (p : α → Prop) (l1 : List α) (h1 : l1.Forall p) : ∀ x ∈ [l1].flatten, p x := by
  intro x hx
  simp only [List.flatten_cons, List.flatten_nil, List.append_nil] at hx
  exact List.forall_iff_forall_mem.mp h1 x hx

theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 4000000 in
theorem hostOps1_keeps (w : Fin 6) : (hostOps1 : List (HloOp τ sig (Elt F))).Forall fun op => Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_1_keeps (w : Fin 6) : (hostOps1_1 : List (HloOp τ sig (Elt F))).Forall fun op => Proc.devRef .tc (Pipeline.arrRef spec0 w) ∉ op.writes := by
  fin_cases w <;>
  · simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_2_keeps (w : Fin 6) : (hostOps1_2 : List (HloOp τ sig (Elt F))).Forall fun op => Proc.devRef .tc (Pipeline.arrRef spec0 w) ∉ op.writes := by
  fin_cases w <;>
  · simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact (List.forall_iff_forall_mem.mp (hostOps1_keeps w)) op hop
  · exact (List.forall_iff_forall_mem.mp (hostOps1_1_keeps w)) op hop
  · exact (List.forall_iff_forall_mem.mp (hostOps1_2_keeps w)) op hop

/-- The four argument arrays. -/
abbrev argRef : Fin 4 → Ref sig .tc := ![main_arg0, main_arg1, main_arg2, main_arg3]

theorem hostOps0_keeps_arg (k : Fin 4) : (hostOps0 : List (HloOp τ sig (Elt F))).Forall fun op => Proc.devRef .tc (argRef k) ∉ op.writes := by
  fin_cases k <;>
  · simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_keeps_arg (k : Fin 4) : (hostOps1 : List (HloOp τ sig (Elt F))).Forall fun op => Proc.devRef .tc (argRef k) ∉ op.writes := by
  fin_cases k <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_1_keeps_arg (k : Fin 4) : (hostOps1_1 : List (HloOp τ sig (Elt F))).Forall fun op => Proc.devRef .tc (argRef k) ∉ op.writes := by
  fin_cases k <;>
  · simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_2_keeps_arg (k : Fin 4) : (hostOps1_2 : List (HloOp τ sig (Elt F))).Forall fun op => Proc.devRef .tc (argRef k) ∉ op.writes := by
  fin_cases k <;>
  · simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host operation before the region writes an argument: the region finds it as launched. -/
theorem V_main_arg (k : Fin 4) (c : Dev nD) : V m c (argRef k) = m ((c : Thread nD τ).loc (argRef k)) :=
  StableHlo.after_of_forall_not_mem (b := Proc.devRef .tc (argRef k)) _ _
    (forall_flatten1 (fun op => Proc.devRef .tc (argRef k) ∉ op.writes) hostOps0 (hostOps0_keeps_arg k))

/-- An argument that is no array of the pipeline is written by no host operation after the region either: it ends as launched. -/
theorem W_main_arg (k : Fin 4) (hk : k ≠ 2) (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c (argRef k) = m ((c : Thread nD τ).loc (argRef k)) := by
  unfold Pipeline.afterTail₀
  rw [StableHlo.after_of_forall_not_mem (b := Proc.devRef .tc (argRef k)) _ _
      (forall_flatten3 (fun op => Proc.devRef .tc (argRef k) ∉ op.writes) hostOps1 hostOps1_1 hostOps1_2
        (hostOps1_keeps_arg k) (hostOps1_1_keeps_arg k) (hostOps1_2_keeps_arg k)),
    Pipeline.withArrays_of_ne _ c (V0 m c) _ (argRef k) ((by decide : ∀ k : Fin 4, k ≠ 2 → ∀ w, Pipeline.arrRef spec0 w ≠ argRef k) k hk)]
  exact V_main_arg m k c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg m 0 (by decide) dats c),
     ((h c).2 main_arg1 (Pipeline.mem_restRefs_of main_arg1 (by decide) (by decide))).trans (W_main_arg m 1 (by decide) dats c),
     ((h c).1 1).trans (((dats 0 c).arrAt_in 1 rfl _).trans ((hA c 1).trans (V_main_arg m 2 c))),
     ((h c).2 main_arg3 (Pipeline.mem_restRefs_of main_arg3 (by decide) (by decide))).trans (W_main_arg m 3 (by decide) dats c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1

theorem hcond0_1 : ∀ t : Fin cfg0.N, cond0_1 (grid0.coords t) ↔ t.val % 50 = 49 :=
  (by decide +kernel : ∀ t : Fin grid0.N, cond0_1 (grid0.coords t) ↔ t.val % 50 = 49)

theorem live0 : ∀ (t : Fin cfg0.N) (w : Fin cfg0.W), w.val < 3 ∨ t.val % 50 = 49 → cfg0.idle w (grid0.coords t) = false := by decide +kernel
theorem idle0 : ∀ (t : Fin cfg0.N) (w : Fin cfg0.W), 3 ≤ w.val → ¬t.val % 50 = 49 →
    cfg0.idle w (grid0.coords t) = true ∧ (cfg0.win w).flush t = false := by decide +kernel

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1 .f32 := win0_5.stage (cfg0.slots t 5)
abbrev hs0_5 (t : Fin cfg0.N) : (ms0_5 t).IsWhole := hstage0_5 ((cfg0.slots t 5).cast nbuf0_5)

abbrev VO0_3 : View sig .tc .vmem S1x1024x1 .f32 := (Memref.whole cc0_stg3_0 : Memref sig .tc .vmem S1x1024x1 .f32).view
abbrev VO0_4 : View sig .tc .vmem S1x1024x1 .f32 := (Memref.whole cc0_stg4_0 : Memref sig .tc .vmem S1x1024x1 .f32).view
abbrev VO0_5 : View sig .tc .vmem S1x1024x1 .f32 := (Memref.whole cc0_stg5_0 : Memref sig .tc .vmem S1x1024x1 .f32).view

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

abbrev VS0_0 : View sig .tc .vmem S1024x1 .f32 := scM0_0.view
abbrev VS0_1 : View sig .tc .vmem S1024x1 .f32 := scM0_1.view
abbrev VS0_2 : View sig .tc .vmem S1024x1 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KRunA.lean ====
import proofs.«422824_j5205500363383_3_alg».proof.Proof.KBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1000x512 .f32) (x2 : Vec F S1024x1 .i32) :
    Σ' (L3 : List (View.Piece (Elt F) S1x1024x1 .f32)) (L4 : List (View.Piece (Elt F) S1x1024x1 .f32)) (L5 : List (View.Piece (Elt F) S1x1024x1 .f32)) (LS0 : List (View.Piece (Elt F) S1024x1 .f32)) (LS1 : List (View.Piece (Elt F) S1024x1 .f32)), { LS2 : List (View.Piece (Elt F) S1024x1 .f32) //
      ∀ (xi3 xi4 xi5 : Vec F S1x1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc0__gemm_softmax_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__gemm_softmax_kernel_eq_skeleton]; unfold cc0__gemm_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Gen

end
-- ==== Proof.KRunB.lean ====
import proofs.«422824_j5205500363383_3_alg».proof.Proof.KRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1000x512 .f32) (x2 : Vec F S1024x1 .i32) (xs0 xs1 xs2 : Vec F S1024x1 .f32) :
    Σ' (L3 : List (View.Piece (Elt F) S1x1024x1 .f32)) (L4 : List (View.Piece (Elt F) S1x1024x1 .f32)) (L5 : List (View.Piece (Elt F) S1x1024x1 .f32)) (LS0 : List (View.Piece (Elt F) S1024x1 .f32)) (LS1 : List (View.Piece (Elt F) S1024x1 .f32)), { LS2 : List (View.Piece (Elt F) S1024x1 .f32) //
      ∀ (xi3 xi4 xi5 : Vec F S1x1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc0__gemm_softmax_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__gemm_softmax_kernel_eq_skeleton]; unfold cc0__gemm_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Gen

end
-- ==== Proof.KRunC.lean ====
import proofs.«422824_j5205500363383_3_alg».proof.Proof.KRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1000x512 .f32) (x2 : Vec F S1024x1 .i32) (xs0 xs1 xs2 : Vec F S1024x1 .f32) :
    Σ' (L3 : List (View.Piece (Elt F) S1x1024x1 .f32)) (L4 : List (View.Piece (Elt F) S1x1024x1 .f32)) (L5 : List (View.Piece (Elt F) S1x1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
              ∗ owns (c : Thread nD τ) arg3 fullShare x1
              ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc0__gemm_softmax_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__gemm_softmax_kernel_eq_skeleton]; unfold cc0__gemm_softmax_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.Kernel.Gen

end
-- ==== Proof.KOuts.lean ====
import proofs.«422824_j5205500363383_3_alg».proof.Proof.KRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The contents of outputs 3, 4, 5 and then of scratch 0, 1, 2. -/
abbrev Out6 (F : FTy → Type) : Type :=
  Vec F S1x1024x1 .f32 × Vec F S1x1024x1 .f32 × Vec F S1x1024x1 .f32 × Vec F S1024x1 .f32 × Vec F S1024x1 .f32 × Vec F S1024x1 .f32

/-- A run's six piece lists, each read back over junk. -/
def back6 {P : List (View.Piece (Elt F) S1x1024x1 .f32) → List (View.Piece (Elt F) S1x1024x1 .f32) → List (View.Piece (Elt F) S1x1024x1 .f32) → List (View.Piece (Elt F) S1024x1 .f32) → List (View.Piece (Elt F) S1024x1 .f32) → List (View.Piece (Elt F) S1024x1 .f32) → Prop}
    (r : Σ' (L3 L4 L5 : List (View.Piece (Elt F) S1x1024x1 .f32)) (LS0 LS1 : List (View.Piece (Elt F) S1024x1 .f32)), { LS2 : List (View.Piece (Elt F) S1024x1 .f32) // P L3 L4 L5 LS0 LS1 LS2 }) : Out6 F :=
  (VO0_3.read (Elt F) (VO0_3.writes (Elt F) VO0_3.junk r.1), VO0_4.read (Elt F) (VO0_4.writes (Elt F) VO0_4.junk r.2.1),
   VO0_5.read (Elt F) (VO0_5.writes (Elt F) VO0_5.junk r.2.2.1), VS0_0.read (Elt F) (VS0_0.writes (Elt F) VS0_0.junk r.2.2.2.1),
   VS0_1.read (Elt F) (VS0_1.writes (Elt F) VS0_1.junk r.2.2.2.2.1), VS0_2.read (Elt F) (VS0_2.writes (Elt F) VS0_2.junk r.2.2.2.2.2.1))

section Cases
variable (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)

section A
variable (hc0 : cond0_0 i) (hc1 : ¬cond0_1 i) (x0 : Vec F S1024x512 .bf16) (x1 : Vec F S1000x512 .f32) (x2 : Vec F S1024x1 .i32)
/-- What the case that resets leaves; it stores nothing into the outputs, whose components nothing consults. -/
def outs0_A : Out6 F := back6 (kernelRun0_A c i arg2 harg2 arg3 harg3 arg4 harg4 arg5 harg5 arg6 harg6 arg7 harg7 arg8 harg8 arg9 harg9 arg10 harg10 hc0 hc1 x0 x1 x2)
/-- The pieces written into a scratch buffer tile it, so they cover it. -/
theorem scover0_A_0 (y : S1024x1.Idx) : ∃ pc ∈ (kernelRun0_A c i arg2 harg2 arg3 harg3 arg4 harg4 arg5 harg5 arg6 harg6 arg7 harg7 arg8 harg8 arg9 harg9 arg10 harg10 hc0 hc1 x0 x1 x2).2.2.2.1, y ∈ pc.1.set :=
  View.cover_of_tiledL _ S1024x1.size (by sl_kernel_rfl) y
theorem scover0_A_1 (y : S1024x1.Idx) : ∃ pc ∈ (kernelRun0_A c i arg2 harg2 arg3 harg3 arg4 harg4 arg5 harg5 arg6 harg6 arg7 harg7 arg8 harg8 arg9 harg9 arg10 harg10 hc0 hc1 x0 x1 x2).2.2.2.2.1, y ∈ pc.1.set :=
  View.cover_of_tiledL _ S1024x1.size (by sl_kernel_rfl) y
theorem scover0_A_2 (y : S1024x1.Idx) : ∃ pc ∈ (kernelRun0_A c i arg2 harg2 arg3 harg3 arg4 harg4 arg5 harg5 arg6 harg6 arg7 harg7 arg8 harg8 arg9 harg9 arg10 harg10 hc0 hc1 x0 x1 x2).2.2.2.2.2.1, y ∈ pc.1.set :=
  View.cover_of_tiledL _ S1024x1.size (by sl_kernel_rfl) y
end A

section B
variable (hc0 : ¬cond0_0 i) (hc1 : ¬cond0_1 i) (x0 : Vec F S1024x512 .bf16) (x1 : Vec F S1000x512 .f32) (x2 : Vec F S1024x1 .i32) (xs0 xs1 xs2 : Vec F S1024x1 .f32)
/-- What the case that neither resets nor stores the outputs leaves, over the scratch contents it found. -/
def outs0_B : Out6 F := back6 (kernelRun0_B c i arg2 harg2 arg3 harg3 arg4 harg4 arg5 harg5 arg6 harg6 arg7 harg7 arg8 harg8 arg9 harg9 arg10 harg10 hc0 hc1 x0 x1 x2 xs0 xs1 xs2)
theorem scover0_B_0 (y : S1024x1.Idx) : ∃ pc ∈ (kernelRun0_B c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL _ S1024x1.size (by sl_kernel_rfl) y
theorem scover0_B_1 (y : S1024x1.Idx) : ∃ pc ∈ (kernelRun0_B c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL _ S1024x1.size (by sl_kernel_rfl) y
theorem scover0_B_2 (y : S1024x1.Idx) : ∃ pc ∈ (kernelRun0_B c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL _ S1024x1.size (by sl_kernel_rfl) y
end B

section C
variable (hc0 : ¬cond0_0 i) (hc1 : cond0_1 i) (x0 : Vec F S1024x512 .bf16) (x1 : Vec F S1000x512 .f32) (x2 : Vec F S1024x1 .i32) (xs0 xs1 xs2 : Vec F S1024x1 .f32)
/-- What the case that stores the outputs leaves, over the scratch contents it found. -/
def outs0_C : Out6 F := back6 (kernelRun0_C c i arg2 harg2 arg3 harg3 arg4 harg4 arg5 harg5 arg6 harg6 arg7 harg7 arg8 harg8 arg9 harg9 arg10 harg10 hc0 hc1 x0 x1 x2 xs0 xs1 xs2)
theorem cover0_C_3 (y : S1x1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL _ S1x1024x1.size (by sl_kernel_rfl) y
theorem cover0_C_4 (y : S1x1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL _ S1x1024x1.size (by sl_kernel_rfl) y
theorem cover0_C_5 (y : S1x1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL _ S1x1024x1.size (by sl_kernel_rfl) y
theorem scover0_C_0 (y : S1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL _ S1024x1.size (by sl_kernel_rfl) y
theorem scover0_C_1 (y : S1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL _ S1024x1.size (by sl_kernel_rfl) y
theorem scover0_C_2 (y : S1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL _ S1024x1.size (by sl_kernel_rfl) y
end C

end Cases

variable (m : (ℓ : Loc nD τ sig) → Buf (Elt F) ℓ)

/-- The three cases at point `t`: on its own memrefs, over its input blocks and the scratch contents `s` it finds. -/
abbrev ptA (c : Dev nD) (t : Fin cfg0.N) (h0 : t.val % 50 = 0) (h1 : ¬t.val % 50 = 49) : Out6 F :=
  outs0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
abbrev ptB (c : Dev nD) (t : Fin cfg0.N) (h0 : ¬t.val % 50 = 0) (h1 : ¬t.val % 50 = 49)
    (s : Vec F S1024x1 .f32 × Vec F S1024x1 .f32 × Vec F S1024x1 .f32) : Out6 F :=
  outs0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) s.1 s.2.1 s.2.2
abbrev ptC (c : Dev nD) (t : Fin cfg0.N) (h0 : ¬t.val % 50 = 0) (h1 : t.val % 50 = 49)
    (s : Vec F S1024x1 .f32 × Vec F S1024x1 .f32 × Vec F S1024x1 .f32) : Out6 F :=
  outs0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) s.1 s.2.1 s.2.2

/-- What the six buffers hold after position `n`: the case is chosen by `n % 50` (0 resets, 49 stores the outputs), and every
    position but a reset starts from the scratch contents of the position before. -/
def outsAt0 (c : Dev nD) : (n : ℕ) → n < cfg0.N → Out6 F
  | 0, hn => ptA m c ⟨0, hn⟩ (Nat.zero_mod _) (by (try dsimp only); omega)
  | n + 1, hn =>
    if h0 : (n + 1) % 50 = 0 then ptA m c ⟨n + 1, hn⟩ h0 (by (try dsimp only); omega)
    else if h1 : (n + 1) % 50 = 49 then ptC m c ⟨n + 1, hn⟩ h0 h1 (outsAt0 c n (Nat.lt_of_succ_lt hn)).2.2.2
    else ptB m c ⟨n + 1, hn⟩ h0 h1 (outsAt0 c n (Nat.lt_of_succ_lt hn)).2.2.2

theorem outsAt0_A (c : Dev nD) (t : Fin cfg0.N) (h0 : t.val % 50 = 0) (h1 : ¬t.val % 50 = 49) :
    outsAt0 m c t.val t.isLt = ptA m c t h0 h1 := by
  obtain ⟨n, hn⟩ := t
  cases n with
  | zero => rfl
  | succ n => exact dif_pos h0

theorem outsAt0_B (c : Dev nD) (t : Fin cfg0.N) (h0 : ¬t.val % 50 = 0) (h1 : ¬t.val % 50 = 49) :
    outsAt0 m c t.val t.isLt = ptB m c t h0 h1 (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 50 = 0) (h1 : t.val % 50 = 49) :
    outsAt0 m c t.val t.isLt = ptC m c t h0 h1 (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans (dif_pos h1)

end Cert.Kernel.Gen

end
-- ==== Proof.KFrame.lean ====
import proofs.«422824_j5205500363383_3_alg».proof.Proof.KOuts

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- Before any point the invariant yields the scratch buffers at some contents and the generator register. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
    try exact Idealize.SL.BI.Entails.refl _
  · exact Phi_out m c t ht

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [live0 t 0 (Or.inl (by decide))], after0_0]
  rw [show (dats m 0 c).leavesExact 1 t = owns (c : Thread nD τ) (ms0_1 t) fullShare ((dats m 0 c).after 1 t) from by
    unfold Dat.leavesExact; rw [live0 t 1 (Or.inl (by decide))], after0_1]
  rw [show (dats m 0 c).leavesExact 2 t = owns (c : Thread nD τ) (ms0_2 t) fullShare ((dats m 0 c).after 2 t) from by
    unfold Dat.leavesExact; rw [live0 t 2 (Or.inl (by decide))], after0_2]
  by_cases h0 : t.val % 50 = 0
  · by_cases h1 : t.val % 50 = 49
    · exfalso; omega
    ·   rw [Dat.leavesExact_idle (dats m 0 c) 3 t (idle0 t 3 (by decide) h1).1 (idle0 t 3 (by decide) h1).2]
        rw [Dat.leavesExact_idle (dats m 0 c) 4 t (idle0 t 4 (by decide) h1).1 (idle0 t 4 (by decide) h1).2]
        rw [Dat.leavesExact_idle (dats m 0 c) 5 t (idle0 t 5 (by decide) h1).1 (idle0 t 5 (by decide) h1).2]
        rw [outsAt0_A m c t h0 h1]
        unfold ptA outs0_A back6; dsimp only
        refine (sep_mono_left (Phi_any m c t.castSucc)).trans ?_
        rw [PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

  · by_cases h1 : t.val % 50 = 49
    ·   rw [show (dats m 0 c).leavesExact 3 t = owns (c : Thread nD τ) (ms0_3 t) fullShare ((dats m 0 c).after 3 t) from by
          unfold Dat.leavesExact; rw [live0 t 3 (Or.inr h1)], after0_3]
        rw [show (dats m 0 c).leavesExact 4 t = owns (c : Thread nD τ) (ms0_4 t) fullShare ((dats m 0 c).after 4 t) from by
          unfold Dat.leavesExact; rw [live0 t 4 (Or.inr h1)], after0_4]
        rw [show (dats m 0 c).leavesExact 5 t = owns (c : Thread nD τ) (ms0_5 t) fullShare ((dats m 0 c).after 5 t) from by
          unfold Dat.leavesExact; rw [live0 t 5 (Or.inr h1)], after0_5]
        rw [outsAt0_C m c t h0 h1]
        unfold ptC outs0_C back6; dsimp only
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        iintro ⟨H0, H1, H2, ⟨%e3, H3⟩, ⟨%e4, H4⟩, ⟨%e5, H5⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _)

    ·   rw [Dat.leavesExact_idle (dats m 0 c) 3 t (idle0 t 3 (by decide) h1).1 (idle0 t 3 (by decide) h1).2]
        rw [Dat.leavesExact_idle (dats m 0 c) 4 t (idle0 t 4 (by decide) h1).1 (idle0 t 4 (by decide) h1).2]
        rw [Dat.leavesExact_idle (dats m 0 c) 5 t (idle0 t 5 (by decide) h1).1 (idle0 t 5 (by decide) h1).2]
        rw [outsAt0_B m c t h0 h1]
        unfold ptB outs0_B back6; dsimp only
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := Phi_any m c _

set_option maxHeartbeats 8000000 in
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Gen

end
-- ==== Proof.KIBase.lean ====
import proofs.«422824_j5205500363383_3_alg».proof.Proof.Gen.KernelIdeal.Launch
import proofs.«422824_j5205500363383_3_alg».proof.Proof.Gen.KernelIdeal.Skeleton
import proofs.«422824_j5205500363383_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after (List.flatten [hostOps0]) (fun b => m (c, b))

abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

set_option maxHeartbeats 4000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

theorem forall_flatten3 {α : Type} (p : α → Prop) (l1 l2 l3 : List α) (h1 : l1.Forall p) (h2 : l2.Forall p) (h3 : l3.Forall p) :
    ∀ x ∈ [l1, l2, l3].flatten, p x := by
  intro x hx
  simp only [List.flatten_cons, List.flatten_nil, List.append_nil, List.mem_append] at hx
  rcases hx with h | h | h
  · exact List.forall_iff_forall_mem.mp h1 x h
  · exact List.forall_iff_forall_mem.mp h2 x h
  · exact List.forall_iff_forall_mem.mp h3 x h

theorem forall_flatten1 {α : Type} (p : α → Prop) (l1 : List α) (h1 : l1.Forall p) : ∀ x ∈ [l1].flatten, p x := by
  intro x hx
  simp only [List.flatten_cons, List.flatten_nil, List.append_nil] at hx
  exact List.forall_iff_forall_mem.mp h1 x hx

theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 4000000 in
theorem hostOps1_keeps (w : Fin 6) : (hostOps1 : List (HloOp τ sig (Elt F))).Forall fun op => Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_1_keeps (w : Fin 6) : (hostOps1_1 : List (HloOp τ sig (Elt F))).Forall fun op => Proc.devRef .tc (Pipeline.arrRef spec0 w) ∉ op.writes := by
  fin_cases w <;>
  · simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_2_keeps (w : Fin 6) : (hostOps1_2 : List (HloOp τ sig (Elt F))).Forall fun op => Proc.devRef .tc (Pipeline.arrRef spec0 w) ∉ op.writes := by
  fin_cases w <;>
  · simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl | rfl | rfl
  · exact (List.forall_iff_forall_mem.mp (hostOps1_keeps w)) op hop
  · exact (List.forall_iff_forall_mem.mp (hostOps1_1_keeps w)) op hop
  · exact (List.forall_iff_forall_mem.mp (hostOps1_2_keeps w)) op hop

/-- The four argument arrays. -/
abbrev argRef : Fin 4 → Ref sig .tc := ![main_arg0, main_arg1, main_arg2, main_arg3]

theorem hostOps0_keeps_arg (k : Fin 4) : (hostOps0 : List (HloOp τ sig (Elt F))).Forall fun op => Proc.devRef .tc (argRef k) ∉ op.writes := by
  fin_cases k <;>
  · simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_keeps_arg (k : Fin 4) : (hostOps1 : List (HloOp τ sig (Elt F))).Forall fun op => Proc.devRef .tc (argRef k) ∉ op.writes := by
  fin_cases k <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_1_keeps_arg (k : Fin 4) : (hostOps1_1 : List (HloOp τ sig (Elt F))).Forall fun op => Proc.devRef .tc (argRef k) ∉ op.writes := by
  fin_cases k <;>
  · simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)
set_option maxHeartbeats 4000000 in
theorem hostOps1_2_keeps_arg (k : Fin 4) : (hostOps1_2 : List (HloOp τ sig (Elt F))).Forall fun op => Proc.devRef .tc (argRef k) ∉ op.writes := by
  fin_cases k <;>
  · simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

/-- No host operation before the region writes an argument: the region finds it as launched. -/
theorem V_main_arg (k : Fin 4) (c : Dev nD) : V m c (argRef k) = m ((c : Thread nD τ).loc (argRef k)) :=
  StableHlo.after_of_forall_not_mem (b := Proc.devRef .tc (argRef k)) _ _
    (forall_flatten1 (fun op => Proc.devRef .tc (argRef k) ∉ op.writes) hostOps0 (hostOps0_keeps_arg k))

/-- An argument that is no array of the pipeline is written by no host operation after the region either: it ends as launched. -/
theorem W_main_arg (k : Fin 4) (hk : k ≠ 2) (dats : (p : Fin 1) → (c : Dev nD) → Dat τ (Elt F) Unit ℕ (UR sig nD τ) ℕ (cfgs p) c) (c : Dev nD) :
    Pipeline.afterTail₀ cfgs dats 0 (V0 m) [hostOps1, hostOps1_1, hostOps1_2] c (argRef k) = m ((c : Thread nD τ).loc (argRef k)) := by
  unfold Pipeline.afterTail₀
  rw [StableHlo.after_of_forall_not_mem (b := Proc.devRef .tc (argRef k)) _ _
      (forall_flatten3 (fun op => Proc.devRef .tc (argRef k) ∉ op.writes) hostOps1 hostOps1_1 hostOps1_2
        (hostOps1_keeps_arg k) (hostOps1_1_keeps_arg k) (hostOps1_2_keeps_arg k)),
    Pipeline.withArrays_of_ne _ c (V0 m c) _ (argRef k) ((by decide : ∀ k : Fin 4, k ≠ 2 → ∀ w, Pipeline.arrRef spec0 w ≠ argRef k) k hk)]
  exact V_main_arg m k c

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg m 0 (by decide) dats c),
     ((h c).2 main_arg1 (Pipeline.mem_restRefs_of main_arg1 (by decide) (by decide))).trans (W_main_arg m 1 (by decide) dats c),
     ((h c).1 1).trans (((dats 0 c).arrAt_in 1 rfl _).trans ((hA c 1).trans (V_main_arg m 2 c))),
     ((h c).2 main_arg3 (Pipeline.mem_restRefs_of main_arg3 (by decide) (by decide))).trans (W_main_arg m 3 (by decide) dats c)⟩) h

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 50 = 0 :=
  (by decide +kernel : ∀ t : Fin grid0.N, cond0_0 (grid0.coords t) ↔ t.val % 50 = 0)

abbrev cond0_1 (i : grid0.Coords) : Prop := k0_cond2 i = 1#1

theorem hcond0_1 : ∀ t : Fin cfg0.N, cond0_1 (grid0.coords t) ↔ t.val % 50 = 49 :=
  (by decide +kernel : ∀ t : Fin grid0.N, cond0_1 (grid0.coords t) ↔ t.val % 50 = 49)

theorem live0 : ∀ (t : Fin cfg0.N) (w : Fin cfg0.W), w.val < 3 ∨ t.val % 50 = 49 → cfg0.idle w (grid0.coords t) = false := by decide +kernel
theorem idle0 : ∀ (t : Fin cfg0.N) (w : Fin cfg0.W), 3 ≤ w.val → ¬t.val % 50 = 49 →
    cfg0.idle w (grid0.coords t) = true ∧ (cfg0.win w).flush t = false := by decide +kernel

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1 .f32 := win0_5.stage (cfg0.slots t 5)
abbrev hs0_5 (t : Fin cfg0.N) : (ms0_5 t).IsWhole := hstage0_5 ((cfg0.slots t 5).cast nbuf0_5)

abbrev VO0_3 : View sig .tc .vmem S1x1024x1 .f32 := (Memref.whole cc0_stg3_0 : Memref sig .tc .vmem S1x1024x1 .f32).view
abbrev VO0_4 : View sig .tc .vmem S1x1024x1 .f32 := (Memref.whole cc0_stg4_0 : Memref sig .tc .vmem S1x1024x1 .f32).view
abbrev VO0_5 : View sig .tc .vmem S1x1024x1 .f32 := (Memref.whole cc0_stg5_0 : Memref sig .tc .vmem S1x1024x1 .f32).view

abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

abbrev VS0_0 : View sig .tc .vmem S1024x1 .f32 := scM0_0.view
abbrev VS0_1 : View sig .tc .vmem S1024x1 .f32 := scM0_1.view
abbrev VS0_2 : View sig .tc .vmem S1024x1 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KIRunA.lean ====
import proofs.«422824_j5205500363383_3_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0_0 i) (hc1 : ¬cond0_1 i)
    (x0 : Vec F S1024x512 .bf16) (x1 : Vec F S1000x512 .f32) (x2 : Vec F S1024x1 .i32) :
    Σ' (L3 : List (View.Piece (Elt F) S1x1024x1 .f32)) (L4 : List (View.Piece (Elt F) S1x1024x1 .f32)) (L5 : List (View.Piece (Elt F) S1x1024x1 .f32)) (LS0 : List (View.Piece (Elt F) S1024x1 .f32)) (LS1 : List (View.Piece (Elt F) S1024x1 .f32)), { LS2 : List (View.Piece (Elt F) S1024x1 .f32) //
      ∀ (xi3 xi4 xi5 : Vec F S1x1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc0__gemm_softmax_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__gemm_softmax_kernel_eq_skeleton]; unfold cc0__gemm_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Gen

end
-- ==== Proof.KIRunB.lean ====
import proofs.«422824_j5205500363383_3_alg».proof.Proof.KIRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : ¬cond0_1 i)
    (x0 : Vec F S1024x512 .bf16) (x1 : Vec F S1000x512 .f32) (x2 : Vec F S1024x1 .i32) (xs0 xs1 xs2 : Vec F S1024x1 .f32) :
    Σ' (L3 : List (View.Piece (Elt F) S1x1024x1 .f32)) (L4 : List (View.Piece (Elt F) S1x1024x1 .f32)) (L5 : List (View.Piece (Elt F) S1x1024x1 .f32)) (LS0 : List (View.Piece (Elt F) S1024x1 .f32)) (LS1 : List (View.Piece (Elt F) S1024x1 .f32)), { LS2 : List (View.Piece (Elt F) S1024x1 .f32) //
      ∀ (xi3 xi4 xi5 : Vec F S1x1024x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare xi3
            ∗ owns (c : Thread nD τ) arg6 fullShare xi4
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
              ∗ owns (c : Thread nD τ) arg3 fullShare x1
              ∗ owns (c : Thread nD τ) arg4 fullShare x2
              ∗ owns (c : Thread nD τ) arg5 fullShare xi3
              ∗ owns (c : Thread nD τ) arg6 fullShare xi4
              ∗ owns (c : Thread nD τ) arg7 fullShare xi5
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc0__gemm_softmax_kernel i arg2 harg2 arg3 harg3 arg4 harg4 arg5 harg5 arg6 harg6 arg7 harg7 arg8 harg8 arg9 harg9 arg10 harg10) K } := by
  refine ⟨[], [], [], ?_, ?_, ?_, fun xi3 xi4 xi5 E K => ?run⟩
  case run =>
    simp only [cc0__gemm_softmax_kernel_eq_skeleton]; unfold cc0__gemm_softmax_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Gen

end
-- ==== Proof.KIRunC.lean ====
import proofs.«422824_j5205500363383_3_alg».proof.Proof.KIRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0_0 i) (hc1 : cond0_1 i)
    (x0 : Vec F S1024x512 .bf16) (x1 : Vec F S1000x512 .f32) (x2 : Vec F S1024x1 .i32) (xs0 xs1 xs2 : Vec F S1024x1 .f32) :
    Σ' (L3 : List (View.Piece (Elt F) S1x1024x1 .f32)) (L4 : List (View.Piece (Elt F) S1x1024x1 .f32)) (L5 : List (View.Piece (Elt F) S1x1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
              ∗ owns (c : Thread nD τ) arg3 fullShare x1
              ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ f, arg7.view.loc (c : Thread nD τ) ↦[arg7.view.set]{fullShare} arg7.view.writes (Elt F) f L5)
              ∗ (∃ f, arg8.view.loc (c : Thread nD τ) ↦[arg8.view.set]{fullShare} arg8.view.writes (Elt F) f LS0)
              ∗ (∃ f, arg9.view.loc (c : Thread nD τ) ↦[arg9.view.set]{fullShare} arg9.view.writes (Elt F) f LS1)
              ∗ (∃ f, arg10.view.loc (c : Thread nD τ) ↦[arg10.view.set]{fullShare} arg10.view.writes (Elt F) f LS2)) -∗ K ⟨⟩))
          ⊢ wp frame (wpE (defs₀ (F := F)) Variants.none c none) E (cc0__gemm_softmax_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__gemm_softmax_kernel_eq_skeleton]; unfold cc0__gemm_softmax_kernel_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Gen

end
-- ==== Proof.KIOuts.lean ====
import proofs.«422824_j5205500363383_3_alg».proof.Proof.KIRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The contents of outputs 3, 4, 5 and then of scratch 0, 1, 2. -/
abbrev Out6 (F : FTy → Type) : Type :=
  Vec F S1x1024x1 .f32 × Vec F S1x1024x1 .f32 × Vec F S1x1024x1 .f32 × Vec F S1024x1 .f32 × Vec F S1024x1 .f32 × Vec F S1024x1 .f32

/-- A run's six piece lists, each read back over junk. -/
def back6 {P : List (View.Piece (Elt F) S1x1024x1 .f32) → List (View.Piece (Elt F) S1x1024x1 .f32) → List (View.Piece (Elt F) S1x1024x1 .f32) → List (View.Piece (Elt F) S1024x1 .f32) → List (View.Piece (Elt F) S1024x1 .f32) → List (View.Piece (Elt F) S1024x1 .f32) → Prop}
    (r : Σ' (L3 L4 L5 : List (View.Piece (Elt F) S1x1024x1 .f32)) (LS0 LS1 : List (View.Piece (Elt F) S1024x1 .f32)), { LS2 : List (View.Piece (Elt F) S1024x1 .f32) // P L3 L4 L5 LS0 LS1 LS2 }) : Out6 F :=
  (VO0_3.read (Elt F) (VO0_3.writes (Elt F) VO0_3.junk r.1), VO0_4.read (Elt F) (VO0_4.writes (Elt F) VO0_4.junk r.2.1),
   VO0_5.read (Elt F) (VO0_5.writes (Elt F) VO0_5.junk r.2.2.1), VS0_0.read (Elt F) (VS0_0.writes (Elt F) VS0_0.junk r.2.2.2.1),
   VS0_1.read (Elt F) (VS0_1.writes (Elt F) VS0_1.junk r.2.2.2.2.1), VS0_2.read (Elt F) (VS0_2.writes (Elt F) VS0_2.junk r.2.2.2.2.2.1))

section Cases
variable (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)

section A
variable (hc0 : cond0_0 i) (hc1 : ¬cond0_1 i) (x0 : Vec F S1024x512 .bf16) (x1 : Vec F S1000x512 .f32) (x2 : Vec F S1024x1 .i32)
/-- What the case that resets leaves; it stores nothing into the outputs, whose components nothing consults. -/
def outs0_A : Out6 F := back6 (kernelRun0_A c i arg2 harg2 arg3 harg3 arg4 harg4 arg5 harg5 arg6 harg6 arg7 harg7 arg8 harg8 arg9 harg9 arg10 harg10 hc0 hc1 x0 x1 x2)
/-- The pieces written into a scratch buffer tile it, so they cover it. -/
theorem scover0_A_0 (y : S1024x1.Idx) : ∃ pc ∈ (kernelRun0_A c i arg2 harg2 arg3 harg3 arg4 harg4 arg5 harg5 arg6 harg6 arg7 harg7 arg8 harg8 arg9 harg9 arg10 harg10 hc0 hc1 x0 x1 x2).2.2.2.1, y ∈ pc.1.set :=
  View.cover_of_tiledL _ S1024x1.size (by sl_kernel_rfl) y
theorem scover0_A_1 (y : S1024x1.Idx) : ∃ pc ∈ (kernelRun0_A c i arg2 harg2 arg3 harg3 arg4 harg4 arg5 harg5 arg6 harg6 arg7 harg7 arg8 harg8 arg9 harg9 arg10 harg10 hc0 hc1 x0 x1 x2).2.2.2.2.1, y ∈ pc.1.set :=
  View.cover_of_tiledL _ S1024x1.size (by sl_kernel_rfl) y
theorem scover0_A_2 (y : S1024x1.Idx) : ∃ pc ∈ (kernelRun0_A c i arg2 harg2 arg3 harg3 arg4 harg4 arg5 harg5 arg6 harg6 arg7 harg7 arg8 harg8 arg9 harg9 arg10 harg10 hc0 hc1 x0 x1 x2).2.2.2.2.2.1, y ∈ pc.1.set :=
  View.cover_of_tiledL _ S1024x1.size (by sl_kernel_rfl) y
end A

section B
variable (hc0 : ¬cond0_0 i) (hc1 : ¬cond0_1 i) (x0 : Vec F S1024x512 .bf16) (x1 : Vec F S1000x512 .f32) (x2 : Vec F S1024x1 .i32) (xs0 xs1 xs2 : Vec F S1024x1 .f32)
/-- What the case that neither resets nor stores the outputs leaves, over the scratch contents it found. -/
def outs0_B : Out6 F := back6 (kernelRun0_B c i arg2 harg2 arg3 harg3 arg4 harg4 arg5 harg5 arg6 harg6 arg7 harg7 arg8 harg8 arg9 harg9 arg10 harg10 hc0 hc1 x0 x1 x2 xs0 xs1 xs2)
theorem scover0_B_0 (y : S1024x1.Idx) : ∃ pc ∈ (kernelRun0_B c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL _ S1024x1.size (by sl_kernel_rfl) y
theorem scover0_B_1 (y : S1024x1.Idx) : ∃ pc ∈ (kernelRun0_B c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL _ S1024x1.size (by sl_kernel_rfl) y
theorem scover0_B_2 (y : S1024x1.Idx) : ∃ pc ∈ (kernelRun0_B c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL _ S1024x1.size (by sl_kernel_rfl) y
end B

section C
variable (hc0 : ¬cond0_0 i) (hc1 : cond0_1 i) (x0 : Vec F S1024x512 .bf16) (x1 : Vec F S1000x512 .f32) (x2 : Vec F S1024x1 .i32) (xs0 xs1 xs2 : Vec F S1024x1 .f32)
/-- What the case that stores the outputs leaves, over the scratch contents it found. -/
def outs0_C : Out6 F := back6 (kernelRun0_C c i arg2 harg2 arg3 harg3 arg4 harg4 arg5 harg5 arg6 harg6 arg7 harg7 arg8 harg8 arg9 harg9 arg10 harg10 hc0 hc1 x0 x1 x2 xs0 xs1 xs2)
theorem cover0_C_3 (y : S1x1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).1, y ∈ pc.1.set :=
  View.cover_of_tiledL _ S1x1024x1.size (by sl_kernel_rfl) y
theorem cover0_C_4 (y : S1x1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.1, y ∈ pc.1.set :=
  View.cover_of_tiledL _ S1x1024x1.size (by sl_kernel_rfl) y
theorem cover0_C_5 (y : S1x1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.1, y ∈ pc.1.set :=
  View.cover_of_tiledL _ S1x1024x1.size (by sl_kernel_rfl) y
theorem scover0_C_0 (y : S1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.1, y ∈ pc.1.set :=
  View.cover_of_tiledL _ S1024x1.size (by sl_kernel_rfl) y
theorem scover0_C_1 (y : S1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.2.1, y ∈ pc.1.set :=
  View.cover_of_tiledL _ S1024x1.size (by sl_kernel_rfl) y
theorem scover0_C_2 (y : S1024x1.Idx) : ∃ pc ∈ (kernelRun0_C c i arg2 harg2 arg3 harg3 arg4 harg4 arg5 harg5 arg6 harg6 arg7 harg7 arg8 harg8 arg9 harg9 arg10 harg10 hc0 hc1 x0 x1 x2 xs0 xs1 xs2).2.2.2.2.2.1, y ∈ pc.1.set :=
  View.cover_of_tiledL _ S1024x1.size (by sl_kernel_rfl) y
end C

end Cases

variable (m : (ℓ : Loc nD τ sig) → Buf (Elt F) ℓ)

/-- The three cases at point `t`: on its own memrefs, over its input blocks and the scratch contents `s` it finds. -/
abbrev ptA (c : Dev nD) (t : Fin cfg0.N) (h0 : t.val % 50 = 0) (h1 : ¬t.val % 50 = 49) : Out6 F :=
  outs0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)
abbrev ptB (c : Dev nD) (t : Fin cfg0.N) (h0 : ¬t.val % 50 = 0) (h1 : ¬t.val % 50 = 49)
    (s : Vec F S1024x1 .f32 × Vec F S1024x1 .f32 × Vec F S1024x1 .f32) : Out6 F :=
  outs0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) s.1 s.2.1 s.2.2
abbrev ptC (c : Dev nD) (t : Fin cfg0.N) (h0 : ¬t.val % 50 = 0) (h1 : t.val % 50 = 49)
    (s : Vec F S1024x1 .f32 × Vec F S1024x1 .f32 × Vec F S1024x1 .f32) : Out6 F :=
  outs0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) s.1 s.2.1 s.2.2

/-- What the six buffers hold after position `n`: the case is chosen by `n % 50` (0 resets, 49 stores the outputs), and every
    position but a reset starts from the scratch contents of the position before. -/
def outsAt0 (c : Dev nD) : (n : ℕ) → n < cfg0.N → Out6 F
  | 0, hn => ptA m c ⟨0, hn⟩ (Nat.zero_mod _) (by (try dsimp only); omega)
  | n + 1, hn =>
    if h0 : (n + 1) % 50 = 0 then ptA m c ⟨n + 1, hn⟩ h0 (by (try dsimp only); omega)
    else if h1 : (n + 1) % 50 = 49 then ptC m c ⟨n + 1, hn⟩ h0 h1 (outsAt0 c n (Nat.lt_of_succ_lt hn)).2.2.2
    else ptB m c ⟨n + 1, hn⟩ h0 h1 (outsAt0 c n (Nat.lt_of_succ_lt hn)).2.2.2

theorem outsAt0_A (c : Dev nD) (t : Fin cfg0.N) (h0 : t.val % 50 = 0) (h1 : ¬t.val % 50 = 49) :
    outsAt0 m c t.val t.isLt = ptA m c t h0 h1 := by
  obtain ⟨n, hn⟩ := t
  cases n with
  | zero => rfl
  | succ n => exact dif_pos h0

theorem outsAt0_B (c : Dev nD) (t : Fin cfg0.N) (h0 : ¬t.val % 50 = 0) (h1 : ¬t.val % 50 = 49) :
    outsAt0 m c t.val t.isLt = ptB m c t h0 h1 (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 50 = 0) (h1 : t.val % 50 = 49) :
    outsAt0 m c t.val t.isLt = ptC m c t h0 h1 (outsAt0 m c (t.val - 1) (Nat.lt_of_le_of_lt (Nat.sub_le _ _) t.isLt)).2.2.2 := by
  obtain ⟨n, hn⟩ := t
  cases n with
  | zero => exact absurd (Nat.zero_mod _) h0
  | succ n => exact (dif_neg h0).trans (dif_pos h1)

end Cert.KernelIdeal.Gen

end
-- ==== Proof.KIFrame.lean ====
import proofs.«422824_j5205500363383_3_alg».proof.Proof.KIOuts

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- Before any point the invariant yields the scratch buffers at some contents and the generator register. -/
theorem Phi_any (c : Dev nD) (t : Fin (cfg0.N + 1)) : (dats m 0 c).Φ t ⊢ Pipeline.ΦA spec0 c := by
  by_cases ht : t.val = 0
  · rw [show (dats m 0 c).Φ t = PhiS m c t.val (Nat.le_of_lt_succ t.isLt) from rfl, PhiS_zero m c _ _ ht]
    try exact Idealize.SL.BI.Entails.refl _
  · exact Phi_out m c t ht

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [live0 t 0 (Or.inl (by decide))], after0_0]
  rw [show (dats m 0 c).leavesExact 1 t = owns (c : Thread nD τ) (ms0_1 t) fullShare ((dats m 0 c).after 1 t) from by
    unfold Dat.leavesExact; rw [live0 t 1 (Or.inl (by decide))], after0_1]
  rw [show (dats m 0 c).leavesExact 2 t = owns (c : Thread nD τ) (ms0_2 t) fullShare ((dats m 0 c).after 2 t) from by
    unfold Dat.leavesExact; rw [live0 t 2 (Or.inl (by decide))], after0_2]
  by_cases h0 : t.val % 50 = 0
  · by_cases h1 : t.val % 50 = 49
    · exfalso; omega
    ·   rw [Dat.leavesExact_idle (dats m 0 c) 3 t (idle0 t 3 (by decide) h1).1 (idle0 t 3 (by decide) h1).2]
        rw [Dat.leavesExact_idle (dats m 0 c) 4 t (idle0 t 4 (by decide) h1).1 (idle0 t 4 (by decide) h1).2]
        rw [Dat.leavesExact_idle (dats m 0 c) 5 t (idle0 t 5 (by decide) h1).1 (idle0 t 5 (by decide) h1).2]
        rw [outsAt0_A m c t h0 h1]
        unfold ptA outs0_A back6; dsimp only
        refine (sep_mono_left (Phi_any m c t.castSucc)).trans ?_
        rw [PhiA0_eq]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t)).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

  · by_cases h1 : t.val % 50 = 49
    ·   rw [show (dats m 0 c).leavesExact 3 t = owns (c : Thread nD τ) (ms0_3 t) fullShare ((dats m 0 c).after 3 t) from by
          unfold Dat.leavesExact; rw [live0 t 3 (Or.inr h1)], after0_3]
        rw [show (dats m 0 c).leavesExact 4 t = owns (c : Thread nD τ) (ms0_4 t) fullShare ((dats m 0 c).after 4 t) from by
          unfold Dat.leavesExact; rw [live0 t 4 (Or.inr h1)], after0_4]
        rw [show (dats m 0 c).leavesExact 5 t = owns (c : Thread nD τ) (ms0_5 t) fullShare ((dats m 0 c).after 5 t) from by
          unfold Dat.leavesExact; rw [live0 t 5 (Or.inr h1)], after0_5]
        rw [outsAt0_C m c t h0 h1]
        unfold ptC outs0_C back6; dsimp only
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) _ _ _).2.2.2.2.2.2 Set.univ _)
        isplitl [H0]; · iexact H0
        isplitl [H1]; · iexact H1
        isplitl [H2]; · iexact H2
        isplitl [H3]; · iexists _; iexact H3
        isplitl [H4]; · iexists _; iexact H4
        isplitl [H5]; · iexists _; iexact H5
        isplitl [HS0]; · iexact HS0
        isplitl [HS1]; · iexact HS1
        isplitl [HS2]; · iexact HS2
        iintro ⟨H0, H1, H2, ⟨%e3, H3⟩, ⟨%e4, H4⟩, ⟨%e5, H5⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _ _ _)
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _ _ _)

    ·   rw [Dat.leavesExact_idle (dats m 0 c) 3 t (idle0 t 3 (by decide) h1).1 (idle0 t 3 (by decide) h1).2]
        rw [Dat.leavesExact_idle (dats m 0 c) 4 t (idle0 t 4 (by decide) h1).1 (idle0 t 4 (by decide) h1).2]
        rw [Dat.leavesExact_idle (dats m 0 c) 5 t (idle0 t 5 (by decide) h1).1 (idle0 t 5 (by decide) h1).2]
        rw [outsAt0_B m c t h0 h1]
        unfold ptB outs0_B back6; dsimp only
        have hz : t.val ≠ 0 := by omega
        rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) _ _ _).2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        isplitl [H4]; · iexists _; iexact H4
        iexists _; iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := Phi_any m c _

set_option maxHeartbeats 8000000 in
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Gen

end
-- ==== Proof.KIFinal.lean ====
import proofs.«422824_j5205500363383_3_alg».proof.Proof.KIFrame
import Idealize.ShloMosaic.Lib.ValueIdx
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem point_eq_of_bracket {t t' q q' i : ℕ} (hq : q = t / 50) (hq' : q' = t' / 50) (p : t % 50 = 49) (p' : t' % 50 = 49)
    (b : q * 1 ≤ i ∧ i < q * 1 + 1) (b' : q' * 1 ≤ i ∧ i < q' * 1 + 1) : t = t' := by omega

theorem idx_facts3 : ∀ t : Fin cfg0.N, win0_3.index t (0 : Fin 3) = t.val / 50 ∧ win0_3.index t (1 : Fin 3) = 0 ∧ win0_3.index t (2 : Fin 3) = 0 :=
  (by decide +kernel : ∀ t : Fin grid0.N, win0_3.index t (0 : Fin 3) = t.val / 50 ∧ win0_3.index t (1 : Fin 3) = 0 ∧ win0_3.index t (2 : Fin 3) = 0)

theorem mem_blk3 (t : Fin cfg0.N) (i : S2x1024x1.Idx) :
    i ∈ ((cfg0.win 3).blk t).view.set ↔ ∀ a : Fin 3, win0_3.index t a * S1x1024x1.size a ≤ (i a).val ∧ (i a).val < win0_3.index t a * S1x1024x1.size a + S1x1024x1.size a := by
  show i ∈ ((View.whole main_v10_0).slice (win0_3.rect t)).set ↔ _
  rw [View.set_slice_whole, Rect.mem_set_unit]
  exact Iff.rfl

theorem disj3 (t t' : Fin cfg0.N) (hf : (cfg0.win 3).flush t = true) (hf' : (cfg0.win 3).flush t' = true) (hne : t ≠ t') :
    Disjoint ((cfg0.win 3).blk t).view.set ((cfg0.win 3).blk t').view.set := by
  rw [Finset.disjoint_left]
  intro i hi hi'
  rw [mem_blk3] at hi hi'
  exact hne (Fin.ext (point_eq_of_bracket (idx_facts3 t).1 (idx_facts3 t').1 ((flush0_3 t).mp hf) ((flush0_3 t').mp hf') (hi 0) (hi' 0)))

theorem arr3_apply_of {c : Dev nD} (dat : Dat τ (Elt F) Unit ℕ (UR sig nD τ) ℕ cfg0 c) (h : Fin 2) (r : Fin 1024)
    (hn : h.val * 50 + 49 < cfg0.N) :
    dat.arrAt 3 cfg0.N (ValueIdx.ix3 h r (0 : Fin 1)) = dat.after 3 ⟨h.val * 50 + 49, hn⟩ (ValueIdx.ix3 (0 : Fin 1) r (0 : Fin 1)) := by
  have hf : (cfg0.win 3).flush ⟨h.val * 50 + 49, hn⟩ = true := (flush0_3 _).mpr (by show (h.val * 50 + 49) % 50 = 49; omega)
  have e := dat.arrAt_emb_eq_flushed 3 disj3 ⟨h.val * 50 + 49, hn⟩ hf (ValueIdx.ix3 (0 : Fin 1) r (0 : Fin 1))
  have hemb : ((cfg0.win 3).blk ⟨h.val * 50 + 49, hn⟩).view.emb (ValueIdx.ix3 (0 : Fin 1) r (0 : Fin 1)) = ValueIdx.ix3 h r (0 : Fin 1) := by
    obtain ⟨e0, e1, e2⟩ := idx_facts3 ⟨h.val * 50 + 49, hn⟩
    funext a; apply Fin.ext
    match a with
    | ⟨0, _⟩ =>
      show win0_3.index ⟨h.val * 50 + 49, hn⟩ (0 : Fin 3) * 1 + 1 * 0 = h.val
      rw [e0]; show (h.val * 50 + 49) / 50 * 1 + 1 * 0 = h.val; omega
    | ⟨1, _⟩ =>
      show win0_3.index ⟨h.val * 50 + 49, hn⟩ (1 : Fin 3) * 1024 + 1 * r.val = r.val
      rw [e1]; omega
    | ⟨2, _⟩ =>
      show win0_3.index ⟨h.val * 50 + 49, hn⟩ (2 : Fin 3) * 1 + 1 * 0 = 0
      rw [e2]
  rw [hemb] at e
  exact e.trans (cast_eq _ _)

theorem idx_facts4 : ∀ t : Fin cfg0.N, win0_4.index t (0 : Fin 3) = t.val / 50 ∧ win0_4.index t (1 : Fin 3) = 0 ∧ win0_4.index t (2 : Fin 3) = 0 :=
  (by decide +kernel : ∀ t : Fin grid0.N, win0_4.index t (0 : Fin 3) = t.val / 50 ∧ win0_4.index t (1 : Fin 3) = 0 ∧ win0_4.index t (2 : Fin 3) = 0)

theorem mem_blk4 (t : Fin cfg0.N) (i : S2x1024x1.Idx) :
    i ∈ ((cfg0.win 4).blk t).view.set ↔ ∀ a : Fin 3, win0_4.index t a * S1x1024x1.size a ≤ (i a).val ∧ (i a).val < win0_4.index t a * S1x1024x1.size a + S1x1024x1.size a := by
  show i ∈ ((View.whole main_v10_1).slice (win0_4.rect t)).set ↔ _
  rw [View.set_slice_whole, Rect.mem_set_unit]
  exact Iff.rfl

theorem disj4 (t t' : Fin cfg0.N) (hf : (cfg0.win 4).flush t = true) (hf' : (cfg0.win 4).flush t' = true) (hne : t ≠ t') :
    Disjoint ((cfg0.win 4).blk t).view.set ((cfg0.win 4).blk t').view.set := by
  rw [Finset.disjoint_left]
  intro i hi hi'
  rw [mem_blk4] at hi hi'
  exact hne (Fin.ext (point_eq_of_bracket (idx_facts4 t).1 (idx_facts4 t').1 ((flush0_4 t).mp hf) ((flush0_4 t').mp hf') (hi 0) (hi' 0)))

theorem arr4_apply_of {c : Dev nD} (dat : Dat τ (Elt F) Unit ℕ (UR sig nD τ) ℕ cfg0 c) (h : Fin 2) (r : Fin 1024)
    (hn : h.val * 50 + 49 < cfg0.N) :
    dat.arrAt 4 cfg0.N (ValueIdx.ix3 h r (0 : Fin 1)) = dat.after 4 ⟨h.val * 50 + 49, hn⟩ (ValueIdx.ix3 (0 : Fin 1) r (0 : Fin 1)) := by
  have hf : (cfg0.win 4).flush ⟨h.val * 50 + 49, hn⟩ = true := (flush0_4 _).mpr (by show (h.val * 50 + 49) % 50 = 49; omega)
  have e := dat.arrAt_emb_eq_flushed 4 disj4 ⟨h.val * 50 + 49, hn⟩ hf (ValueIdx.ix3 (0 : Fin 1) r (0 : Fin 1))
  have hemb : ((cfg0.win 4).blk ⟨h.val * 50 + 49, hn⟩).view.emb (ValueIdx.ix3 (0 : Fin 1) r (0 : Fin 1)) = ValueIdx.ix3 h r (0 : Fin 1) := by
    obtain ⟨e0, e1, e2⟩ := idx_facts4 ⟨h.val * 50 + 49, hn⟩
    funext a; apply Fin.ext
    match a with
    | ⟨0, _⟩ =>
      show win0_4.index ⟨h.val * 50 + 49, hn⟩ (0 : Fin 3) * 1 + 1 * 0 = h.val
      rw [e0]; show (h.val * 50 + 49) / 50 * 1 + 1 * 0 = h.val; omega
    | ⟨1, _⟩ =>
      show win0_4.index ⟨h.val * 50 + 49, hn⟩ (1 : Fin 3) * 1024 + 1 * r.val = r.val
      rw [e1]; omega
    | ⟨2, _⟩ =>
      show win0_4.index ⟨h.val * 50 + 49, hn⟩ (2 : Fin 3) * 1 + 1 * 0 = 0
      rw [e2]
  rw [hemb] at e
  exact e.trans (cast_eq _ _)

theorem idx_facts5 : ∀ t : Fin cfg0.N, win0_5.index t (0 : Fin 3) = t.val / 50 ∧ win0_5.index t (1 : Fin 3) = 0 ∧ win0_5.index t (2 : Fin 3) = 0 :=
  (by decide +kernel : ∀ t : Fin grid0.N, win0_5.index t (0 : Fin 3) = t.val / 50 ∧ win0_5.index t (1 : Fin 3) = 0 ∧ win0_5.index t (2 : Fin 3) = 0)

theorem mem_blk5 (t : Fin cfg0.N) (i : S2x1024x1.Idx) :
    i ∈ ((cfg0.win 5).blk t).view.set ↔ ∀ a : Fin 3, win0_5.index t a * S1x1024x1.size a ≤ (i a).val ∧ (i a).val < win0_5.index t a * S1x1024x1.size a + S1x1024x1.size a := by
  show i ∈ ((View.whole main_v10_2).slice (win0_5.rect t)).set ↔ _
  rw [View.set_slice_whole, Rect.mem_set_unit]
  exact Iff.rfl

theorem disj5 (t t' : Fin cfg0.N) (hf : (cfg0.win 5).flush t = true) (hf' : (cfg0.win 5).flush t' = true) (hne : t ≠ t') :
    Disjoint ((cfg0.win 5).blk t).view.set ((cfg0.win 5).blk t').view.set := by
  rw [Finset.disjoint_left]
  intro i hi hi'
  rw [mem_blk5] at hi hi'
  exact hne (Fin.ext (point_eq_of_bracket (idx_facts5 t).1 (idx_facts5 t').1 ((flush0_5 t).mp hf) ((flush0_5 t').mp hf') (hi 0) (hi' 0)))

theorem arr5_apply_of {c : Dev nD} (dat : Dat τ (Elt F) Unit ℕ (UR sig nD τ) ℕ cfg0 c) (h : Fin 2) (r : Fin 1024)
    (hn : h.val * 50 + 49 < cfg0.N) :
    dat.arrAt 5 cfg0.N (ValueIdx.ix3 h r (0 : Fin 1)) = dat.after 5 ⟨h.val * 50 + 49, hn⟩ (ValueIdx.ix3 (0 : Fin 1) r (0 : Fin 1)) := by
  have hf : (cfg0.win 5).flush ⟨h.val * 50 + 49, hn⟩ = true := (flush0_5 _).mpr (by show (h.val * 50 + 49) % 50 = 49; omega)
  have e := dat.arrAt_emb_eq_flushed 5 disj5 ⟨h.val * 50 + 49, hn⟩ hf (ValueIdx.ix3 (0 : Fin 1) r (0 : Fin 1))
  have hemb : ((cfg0.win 5).blk ⟨h.val * 50 + 49, hn⟩).view.emb (ValueIdx.ix3 (0 : Fin 1) r (0 : Fin 1)) = ValueIdx.ix3 h r (0 : Fin 1) := by
    obtain ⟨e0, e1, e2⟩ := idx_facts5 ⟨h.val * 50 + 49, hn⟩
    funext a; apply Fin.ext
    match a with
    | ⟨0, _⟩ =>
      show win0_5.index ⟨h.val * 50 + 49, hn⟩ (0 : Fin 3) * 1 + 1 * 0 = h.val
      rw [e0]; show (h.val * 50 + 49) / 50 * 1 + 1 * 0 = h.val; omega
    | ⟨1, _⟩ =>
      show win0_5.index ⟨h.val * 50 + 49, hn⟩ (1 : Fin 3) * 1024 + 1 * r.val = r.val
      rw [e1]; omega
    | ⟨2, _⟩ =>
      show win0_5.index ⟨h.val * 50 + 49, hn⟩ (2 : Fin 3) * 1 + 1 * 0 = 0
      rw [e2]
  rw [hemb] at e
  exact e.trans (cast_eq _ _)

variable (m : (ℓ : Loc nD τ sig) → Buf (Elt F) ℓ)

abbrev A3 (c : Dev nD) : Vec F S2x1024x1 .f32 := (dats m 0 c).arrAt 3 cfg0.N

abbrev A4 (c : Dev nD) : Vec F S2x1024x1 .f32 := (dats m 0 c).arrAt 4 cfg0.N

abbrev A5 (c : Dev nD) : Vec F S2x1024x1 .f32 := (dats m 0 c).arrAt 5 cfg0.N

theorem A3_apply (c : Dev nD) (h : Fin 2) (r : Fin 1024) (hn : h.val * 50 + 49 < cfg0.N) :
    A3 m c (ValueIdx.ix3 h r (0 : Fin 1)) = (outsAt0 m c (h.val * 50 + 49) hn).1 (ValueIdx.ix3 (0 : Fin 1) r (0 : Fin 1)) :=
  (arr3_apply_of (dats m 0 c) h r hn).trans (congrFun (after0_3 m c ⟨h.val * 50 + 49, hn⟩) _)

theorem A4_apply (c : Dev nD) (h : Fin 2) (r : Fin 1024) (hn : h.val * 50 + 49 < cfg0.N) :
    A4 m c (ValueIdx.ix3 h r (0 : Fin 1)) = (outsAt0 m c (h.val * 50 + 49) hn).2.1 (ValueIdx.ix3 (0 : Fin 1) r (0 : Fin 1)) :=
  (arr4_apply_of (dats m 0 c) h r hn).trans (congrFun (after0_4 m c ⟨h.val * 50 + 49, hn⟩) _)

theorem A5_apply (c : Dev nD) (h : Fin 2) (r : Fin 1024) (hn : h.val * 50 + 49 < cfg0.N) :
    A5 m c (ValueIdx.ix3 h r (0 : Fin 1)) = (outsAt0 m c (h.val * 50 + 49) hn).2.2.1 (ValueIdx.ix3 (0 : Fin 1) r (0 : Fin 1)) :=
  (arr5_apply_of (dats m 0 c) h r hn).trans (congrFun (after0_5 m c ⟨h.val * 50 + 49, hn⟩) _)

end Cert.KernelIdeal.Gen

end
-- ==== Proof.KITailDefs.lean ====
import proofs.«422824_j5205500363383_3_alg».proof.Proof.Gen.KernelIdeal.Launch

noncomputable section

namespace Cert.KernelIdeal.TailVal

open Cert.KernelIdeal Cert.KernelIdeal.Gen Idealize.ShloMosaic Idealize.ShloMosaic.TcCoe Idealize.ShloMosaic.StableHlo

variable {F : FTy → Type} [FloatOps F] [Named F]

def xnFn (x : FVec F S1024x512 .f32) : FVec F S1024x512 .f32 :=
  Host.divf x
    (broadcastInDim S1024x512 ![0, 1] bcast_S1024x1_S1024x512_0_1
      (maximumf
        (Host.sqrt (broadcastInDim S1024x1 ![0] bcast_S1024_S1024x1_0
          (Host.reduceAdd (mulf x x) (constant (F := F) S_ .f32 0x00000000#32) reducesTo_S1024x512_S1024_d1 h_S_)))
        (broadcastInDim S1024x1 ![] bcast_S_S1024x1 (constant (F := F) S_ .f32 0x2B8CBCCC#32))))

def idxCol (tg : IVec S1024 32) : IVec S1024x1 32 :=
  broadcastInDim S1024x1 ![0] bcast_S1024_S1024x1_0
    (select (cmpi .slt tg (broadcastInDim S1024 ![] bcast_S_S1024 (constantI S_ 32 0#32)))
      (addi tg (broadcastInDim S1024 ![] bcast_S_S1024 (constantI S_ 32 100000#32)))
      tg)

def nllK (o3 o4 o5 : FVec F S2x1024x1 .f32) : FVec F S1024 .f32 :=
  let m0 : FVec F S1024 .f32 := shapeCast S1024 (extractStridedSlice S1x1024x1 ![0, 0, 0] o3 slices_S2x1024x1_S1x1024x1_0_0_0) shapeCasts_S1x1024x1_S1024
  let m1 : FVec F S1024 .f32 := shapeCast S1024 (extractStridedSlice S1x1024x1 ![1, 0, 0] o3 slices_S2x1024x1_S1x1024x1_1_0_0) shapeCasts_S1x1024x1_S1024
  let l0 : FVec F S1024 .f32 := shapeCast S1024 (extractStridedSlice S1x1024x1 ![0, 0, 0] o4 slices_S2x1024x1_S1x1024x1_0_0_0) shapeCasts_S1x1024x1_S1024
  let l1 : FVec F S1024 .f32 := shapeCast S1024 (extractStridedSlice S1x1024x1 ![1, 0, 0] o4 slices_S2x1024x1_S1x1024x1_1_0_0) shapeCasts_S1x1024x1_S1024
  let t0 : FVec F S1024 .f32 := shapeCast S1024 (extractStridedSlice S1x1024x1 ![0, 0, 0] o5 slices_S2x1024x1_S1x1024x1_0_0_0) shapeCasts_S1x1024x1_S1024
  let t1 : FVec F S1024 .f32 := shapeCast S1024 (extractStridedSlice S1x1024x1 ![1, 0, 0] o5 slices_S2x1024x1_S1x1024x1_1_0_0) shapeCasts_S1x1024x1_S1024
  let mx : FVec F S1024 .f32 := maximumf m0 m1
  subf
    (addf mx (Host.log (addf (mulf l0 (Host.exp (subf m0 mx))) (mulf l1 (Host.exp (subf m1 mx))))))
    (addf t0 t1)

def focal (nll : FVec F S1024 .f32) : FVec F S_ .f32 :=
  let mu : FVec F S_ .f32 :=
    Host.divf (Host.reduceAdd nll (constant (F := F) S_ .f32 0x00000000#32) reducesTo_S1024_S_d0 h_S_)
      (constant (F := F) S_ .f32 0x44800000#32)
  let q : FVec F S_ .f32 := subf (constant (F := F) S_ .f32 0x3F800000#32) (Host.exp (Host.negf mu))
  mulf (mulf q q) mu

def wbK (W : FVec F S100000x512 .f32) (tg : IVec S1024 32) : FVec F S1024x512 .f32 :=
  let g : FVec F S1024x512 .f32 := Host.gather gather_S100000x512_S1024x1_S1024x512_1_0_n_n_0_1_1512 W (idxCol tg)
  Host.divf g
    (broadcastInDim S1024x512 ![0, 1] bcast_S1024x1_S1024x512_0_1
      (maximumf
        (Host.sqrt (broadcastInDim S1024x1 ![0] bcast_S1024_S1024x1_0
          (Host.reduceAdd (mulf g g) (constant (F := F) S_ .f32 0x00000000#32) reducesTo_S1024x512_S1024_d1 h_S_)))
        (broadcastInDim S1024x1 ![] bcast_S_S1024x1 (constant (F := F) S_ .f32 0x2B8CBCCC#32))))

def btK (B : FVec F S100000x512 .f32) (tg : IVec S1024 32) : FVec F S1024x512 .f32 :=
  Host.gather gather_S100000x512_S1024x1_S1024x512_1_0_n_n_0_1_1512 B (idxCol tg)

def disc (xn wb bt : FVec F S1024x512 .f32) : FVec F S_ .f32 :=
  let nb : FVec F S1024x1 .f32 :=
    Host.sqrt (broadcastInDim S1024x1 ![0] bcast_S1024_S1024x1_0
      (Host.reduceAdd (mulf bt bt) (constant (F := F) S_ .f32 0x00000000#32) reducesTo_S1024x512_S1024_d1 h_S_))
  let clip : FVec F S1024x1 .f32 :=
    minimumf (broadcastInDim S1024x1 ![] bcast_S_S1024x1 (constant (F := F) S_ .f32 0x3D4CCCCD#32))
      (maximumf (broadcastInDim S1024x1 ![] bcast_S_S1024x1 (constant (F := F) S_ .f32 0x00000000#32)) nb)
  let bn : FVec F S1024x512 .f32 :=
    Host.divf bt (broadcastInDim S1024x512 ![0, 1] bcast_S1024x1_S1024x512_0_1
      (maximumf nb (broadcastInDim S1024x1 ![] bcast_S_S1024x1 (constant (F := F) S_ .f32 0x2B8CBCCC#32))))
  let r : FVec F S1024x512 .f32 :=
    subf (subf xn wb) (mulf bn (broadcastInDim S1024x512 ![0, 1] bcast_S1024x1_S1024x512_0_1 clip))
  Host.divf
    (Host.reduceAdd
      (Host.sqrt (Host.reduceAdd (mulf r r) (constant (F := F) S_ .f32 0x00000000#32) reducesTo_S1024x512_S1024_d1 h_S_))
      (constant (F := F) S_ .f32 0x00000000#32) reducesTo_S1024_S_d0 h_S_)
    (constant (F := F) S_ .f32 0x44800000#32)

def fin (d f : FVec F S_ .f32) : FVec F S1 .f32 :=
  broadcastInDim S1 ![] bcast_S_S1 (addf (mulf (constant (F := F) S_ .f32 0x3ECCCCCD#32) d) f)

end Cert.KernelIdeal.TailVal

end
-- ==== Proof.Fold.lean ====
import Idealize.ShloMosaic.PureOps.Ideal

noncomputable section

open scoped BigOperators

namespace Cert.Fold

open Idealize.ShloMosaic

abbrev St := EReal × EReal × EReal

def init : St := (⊥, 0, 0)

def tileStep {κ : Type} [Fintype κ] (s : κ → EReal) (hit : κ → Bool) (st : St) : St :=
  (max st.1 (Finset.univ.fold max ⊥ s),
   Ideal.exp (st.1 - max st.1 (Finset.univ.fold max ⊥ s)) * st.2.1
     + ∑ k, Ideal.exp (s k - max st.1 (Finset.univ.fold max ⊥ s)),
   st.2.2 + ∑ k, (if hit k then s k else 0))

def sweep {κ : Type} [Fintype κ] (s : ℕ → κ → EReal) (hit : ℕ → κ → Bool) : ℕ → St
  | 0 => tileStep (s 0) (hit 0) init
  | c + 1 => tileStep (s (c + 1)) (hit (c + 1)) (sweep s hit c)

theorem sweep_zero {κ : Type} [Fintype κ] (s : ℕ → κ → EReal) (hit : ℕ → κ → Bool) :
    sweep s hit 0 = tileStep (s 0) (hit 0) init := rfl

theorem sweep_succ {κ : Type} [Fintype κ] (s : ℕ → κ → EReal) (hit : ℕ → κ → Bool) (c : ℕ) :
    sweep s hit (c + 1) = tileStep (s (c + 1)) (hit (c + 1)) (sweep s hit c) := rfl

def joinNll (a b : St) : EReal :=
  (max a.1 b.1 + Ideal.log (a.2.1 * Ideal.exp (a.1 - max a.1 b.1) + b.2.1 * Ideal.exp (b.1 - max a.1 b.1)))
    - (a.2.2 + b.2.2)

end Cert.Fold

end
-- ==== Proof.KITailVal.lean ====
import proofs.«422824_j5205500363383_3_alg».proof.Proof.KITailDefs
import Idealize.ShloMosaic.Lib.StableHlo.Run
import Idealize.ShloMosaic.Lib.ValueIdx
import Idealize.ShloMosaic.Lib.Pipeline.Value
import Idealize.ShloMosaic.PureOps.Ideal.Laws
import proofs.«422824_j5205500363383_3_alg».proof.Proof.Fold

set_option maxRecDepth 16384

noncomputable section

namespace Cert.KernelIdeal.TailVal

open Cert.KernelIdeal Cert.KernelIdeal.Gen Idealize.ShloMosaic Idealize.ShloMosaic.TcCoe Idealize.ShloMosaic.StableHlo

variable {F : FTy → Type} [FloatOps F] [Named F]

theorem head_val (m0 : Valuation τ sig (Elt F)) :
    let Vh := StableHlo.after (List.flatten [hostOps0 (F := F)]) m0
    Vh (Proc.devRef .tc main_v7) = xnFn (m0 (Proc.devRef .tc main_arg0))
    ∧ Vh (Proc.devRef .tc main_v8) = (truncf .bf16 · bitsLt_bf16_f32) (xnFn (m0 (Proc.devRef .tc main_arg0)))
    ∧ Vh (Proc.devRef .tc main_v9) = shapeCast S1024x1 (m0 (Proc.devRef .tc main_arg1)) shapeCasts_S1024_S1024x1 := by
  intro Vh
  refine ⟨?_, ?_, ?_⟩
  · show StableHlo.after (List.flatten [hostOps0 (F := F)]) m0 _ = _
    simp only [hostOps0, List.flatten_cons, List.flatten_nil, List.append_nil]
    after_results
    rfl
  · show StableHlo.after (List.flatten [hostOps0 (F := F)]) m0 _ = _
    simp only [hostOps0, List.flatten_cons, List.flatten_nil, List.append_nil]
    after_results
    rfl
  · show StableHlo.after (List.flatten [hostOps0 (F := F)]) m0 _ = _
    simp only [hostOps0, List.flatten_cons, List.flatten_nil, List.append_nil]
    after_results
    rfl

set_option maxHeartbeats 4000000 in
theorem tail_val (Vv : Valuation τ sig (Elt F)) :
    StableHlo.after (List.flatten [hostOps1 (F := F), hostOps1_1, hostOps1_2]) Vv (Proc.devRef .tc main_v84)
      = fin (disc (Vv (Proc.devRef .tc main_v7))
                (wbK (Vv (Proc.devRef .tc main_arg2)) (Vv (Proc.devRef .tc main_arg1)))
                (btK (Vv (Proc.devRef .tc main_arg3)) (Vv (Proc.devRef .tc main_arg1))))
            (focal (nllK (Vv (Proc.devRef .tc main_v10_0)) (Vv (Proc.devRef .tc main_v10_1)) (Vv (Proc.devRef .tc main_v10_2)))) := by
  simp only [hostOps1, hostOps1_1, hostOps1_2, List.flatten_cons, List.flatten_nil, List.append_nil, List.cons_append,
    List.nil_append]
  after_results_simp
  rfl

theorem half_apply {α : Type} (o : S2x1024x1.Idx → α) (h : Fin 2)
    (hs : S2x1024x1.Slices ![h.val, 0, 0] S1x1024x1) (hc : S1x1024x1.ShapeCasts S1024) (r : Fin 1024) :
    shapeCast S1024 (extractStridedSlice S1x1024x1 ![h.val, 0, 0] o hs) hc (ValueIdx.ix1 r) = o (ValueIdx.ix3 h r 0) := by
  refine (shapeCast_apply _ hc (ValueIdx.ix1 r) (ValueIdx.ix3 (0 : Fin 1) r (0 : Fin 1)) ?_).trans ?_
  · rw [Shape.rowMajor_val_three, Shape.rowMajor_val_one]
    show (0 * 1024 + r.val) * 1 + 0 = r.val
    omega
  · exact extractStridedSlice_apply _ _ _ _ _ (fun ax => by
      match ax with
      | ⟨0, _⟩ => exact (Nat.add_zero _).symm
      | ⟨1, _⟩ => exact (Nat.zero_add _).symm
      | ⟨2, _⟩ => exact (Nat.zero_add _).symm)

theorem join_apply (m0 m1 l0 l1 t0 t1 : FVec Ideal S1024 .f32) (i : S1024.Idx) :
    subf (addf (maximumf m0 m1)
        (Host.log (addf (mulf l0 (Host.exp (subf m0 (maximumf m0 m1)))) (mulf l1 (Host.exp (subf m1 (maximumf m0 m1)))))))
      (addf t0 t1) i
      = Cert.Fold.joinNll (m0 i, l0 i, t0 i) (m1 i, l1 i, t1 i) := rfl

theorem nllK_apply (o3 o4 o5 : FVec Ideal S2x1024x1 .f32) (r : Fin 1024) :
    nllK (F := Ideal) o3 o4 o5 (ValueIdx.ix1 r)
      = Cert.Fold.joinNll (o3 (ValueIdx.ix3 0 r 0), o4 (ValueIdx.ix3 0 r 0), o5 (ValueIdx.ix3 0 r 0))
          (o3 (ValueIdx.ix3 1 r 0), o4 (ValueIdx.ix3 1 r 0), o5 (ValueIdx.ix3 1 r 0)) := by
  have a0 : shapeCast S1024 (extractStridedSlice S1x1024x1 ![0, 0, 0] o3 slices_S2x1024x1_S1x1024x1_0_0_0) shapeCasts_S1x1024x1_S1024
      (ValueIdx.ix1 r) = o3 (ValueIdx.ix3 0 r 0) := half_apply o3 0 _ _ r
  have a1 : shapeCast S1024 (extractStridedSlice S1x1024x1 ![1, 0, 0] o3 slices_S2x1024x1_S1x1024x1_1_0_0) shapeCasts_S1x1024x1_S1024
      (ValueIdx.ix1 r) = o3 (ValueIdx.ix3 1 r 0) := half_apply o3 1 _ _ r
  have b0 : shapeCast S1024 (extractStridedSlice S1x1024x1 ![0, 0, 0] o4 slices_S2x1024x1_S1x1024x1_0_0_0) shapeCasts_S1x1024x1_S1024
      (ValueIdx.ix1 r) = o4 (ValueIdx.ix3 0 r 0) := half_apply o4 0 _ _ r
  have b1 : shapeCast S1024 (extractStridedSlice S1x1024x1 ![1, 0, 0] o4 slices_S2x1024x1_S1x1024x1_1_0_0) shapeCasts_S1x1024x1_S1024
      (ValueIdx.ix1 r) = o4 (ValueIdx.ix3 1 r 0) := half_apply o4 1 _ _ r
  have c0 : shapeCast S1024 (extractStridedSlice S1x1024x1 ![0, 0, 0] o5 slices_S2x1024x1_S1x1024x1_0_0_0) shapeCasts_S1x1024x1_S1024
      (ValueIdx.ix1 r) = o5 (ValueIdx.ix3 0 r 0) := half_apply o5 0 _ _ r
  have c1 : shapeCast S1024 (extractStridedSlice S1x1024x1 ![1, 0, 0] o5 slices_S2x1024x1_S1x1024x1_1_0_0) shapeCasts_S1x1024x1_S1024
      (ValueIdx.ix1 r) = o5 (ValueIdx.ix3 1 r 0) := half_apply o5 1 _ _ r
  dsimp only [nllK]
  rw [join_apply, a0, a1, b0, b1, c0, c1]

end Cert.KernelIdeal.TailVal

end
-- ==== Proof.KIValueOf.lean ====
import proofs.«422824_j5205500363383_3_alg».proof.Proof.KIBase
import proofs.«422824_j5205500363383_3_alg».proof.Proof.KITailVal

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.TailVal

variable {F : FTy → Type} [FloatOps F] [Named F]

variable (m : (ℓ : Loc nD τ sig) → Buf (Elt F) ℓ) (ρ : Dev nD → PrngReg)

theorem V_main_v7 (c : Dev nD) : V m c main_v7 = xnFn (m ((c.tc : Thread nD τ).loc main_arg0)) :=
  (head_val (fun b => m (c, b))).1

theorem V_main_v8 (c : Dev nD) :
    V m c main_v8 = (truncf .bf16 · bitsLt_bf16_f32) (xnFn (m ((c.tc : Thread nD τ).loc main_arg0))) :=
  (head_val (fun b => m (c, b))).2.1

theorem V_main_v9 (c : Dev nD) :
    V m c main_v9 = shapeCast S1024x1 (m ((c.tc : Thread nD τ).loc main_arg1)) shapeCasts_S1024_S1024x1 :=
  (head_val (fun b => m (c, b))).2.2

section Generic

variable (dats : (p : Fin 1) → (c : Dev nD) → Dat τ (Elt F) Unit ℕ (UR sig nD τ) ℕ (cfgs p) c)

abbrev Vx (c : Dev nD) : Valuation τ sig (Elt F) :=
  Pipeline.withArrays cfg0.spec c (V0 m c) fun w => (dats 0 c).arrAt w cfg0.N

theorem Vx_v7 (c : Dev nD) : Vx m dats c (Proc.devRef .tc main_v7) = xnFn (m ((c.tc : Thread nD τ).loc main_arg0)) :=
  (Pipeline.withArrays_of_ne _ c (V0 m c) _ main_v7 (by exact (by decide : ∀ w, Pipeline.arrRef spec0 w ≠ main_v7))).trans
    (V_main_v7 m c)

theorem Vx_arg1 (c : Dev nD) : Vx m dats c (Proc.devRef .tc main_arg1) = m ((c.tc : Thread nD τ).loc main_arg1) :=
  (Pipeline.withArrays_of_ne _ c (V0 m c) _ main_arg1 (by exact (by decide : ∀ w, Pipeline.arrRef spec0 w ≠ main_arg1))).trans
    (V_main_arg m 1 c)

theorem Vx_arg3 (c : Dev nD) : Vx m dats c (Proc.devRef .tc main_arg3) = m ((c.tc : Thread nD τ).loc main_arg3) :=
  (Pipeline.withArrays_of_ne _ c (V0 m c) _ main_arg3 (by exact (by decide : ∀ w, Pipeline.arrRef spec0 w ≠ main_arg3))).trans
    (V_main_arg m 3 c)

theorem Vx_arg2 (hA : ∀ c w, (dats 0 c).A w = V m c (Pipeline.arrRef spec0 w)) (c : Dev nD) :
    Vx m dats c (Proc.devRef .tc main_arg2) = m ((c.tc : Thread nD τ).loc main_arg2) :=
  (Pipeline.withArrays_arr spec0 launch0.win.arr_inj c (V0 m c) _ 1).trans
    (((dats 0 c).arrAt_in 1 rfl _).trans ((hA c 1).trans (V_main_arg m 2 c)))

theorem Vx_o3 (c : Dev nD) : Vx m dats c (Proc.devRef .tc main_v10_0) = (dats 0 c).arrAt 3 cfg0.N :=
  Pipeline.withArrays_arr spec0 launch0.win.arr_inj c (V0 m c) _ 3
theorem Vx_o4 (c : Dev nD) : Vx m dats c (Proc.devRef .tc main_v10_1) = (dats 0 c).arrAt 4 cfg0.N :=
  Pipeline.withArrays_arr spec0 launch0.win.arr_inj c (V0 m c) _ 4
theorem Vx_o5 (c : Dev nD) : Vx m dats c (Proc.devRef .tc main_v10_2) = (dats 0 c).arrAt 5 cfg0.N :=
  Pipeline.withArrays_arr spec0 launch0.win.arr_inj c (V0 m c) _ 5

theorem tail_at (hA : ∀ c w, (dats 0 c).A w = V m c (Pipeline.arrRef spec0 w)) (c : Dev nD) :
    Pipeline.afterTail₀ cfgs dats 0 (V0 m) [hostOps1, hostOps1_1, hostOps1_2] c main_v84
      = fin (disc (xnFn (m ((c.tc : Thread nD τ).loc main_arg0)))
                (wbK (m ((c.tc : Thread nD τ).loc main_arg2)) (m ((c.tc : Thread nD τ).loc main_arg1)))
                (btK (m ((c.tc : Thread nD τ).loc main_arg3)) (m ((c.tc : Thread nD τ).loc main_arg1))))
            (focal (nllK ((dats 0 c).arrAt 3 cfg0.N) ((dats 0 c).arrAt 4 cfg0.N) ((dats 0 c).arrAt 5 cfg0.N))) := by
  show StableHlo.after (List.flatten [hostOps1 (F := F), hostOps1_1, hostOps1_2]) (Vx m dats c) (Proc.devRef .tc main_v84) = _
  rw [tail_val, Vx_v7, Vx_arg1, Vx_arg2 m dats hA, Vx_arg3, Vx_o3, Vx_o4, Vx_o5]

theorem value_of (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_v84)
        = fin (disc (xnFn (m ((c.tc : Thread nD τ).loc main_arg0)))
                  (wbK (m ((c.tc : Thread nD τ).loc main_arg2)) (m ((c.tc : Thread nD τ).loc main_arg1)))
                  (btK (m ((c.tc : Thread nD τ).loc main_arg3)) (m ((c.tc : Thread nD τ).loc main_arg1))))
              (focal (nllK ((dats 0 c).arrAt 3 cfg0.N) ((dats 0 c).arrAt 4 cfg0.N) ((dats 0 c).arrAt 5 cfg0.N)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v84 (Pipeline.mem_restRefs_of main_v84 (by decide) (by decide))).trans (tail_at m dats hA c),
     ((h c).2 main_arg0 (Pipeline.mem_restRefs_of main_arg0 (by decide) (by decide))).trans (W_main_arg m 0 (by decide) dats c),
     ((h c).2 main_arg1 (Pipeline.mem_restRefs_of main_arg1 (by decide) (by decide))).trans (W_main_arg m 1 (by decide) dats c),
     ((h c).1 1).trans (((dats 0 c).arrAt_in 1 rfl _).trans ((hA c 1).trans (V_main_arg m 2 c))),
     ((h c).2 main_arg3 (Pipeline.mem_restRefs_of main_arg3 (by decide) (by decide))).trans (W_main_arg m 3 (by decide) dats c)⟩) h

end Generic

theorem truncf_id (v : FVec Ideal S1024x512 .f32) : (truncf .bf16 v bitsLt_bf16_f32 : FVec Ideal S1024x512 .bf16) = v := rfl

theorem col_apply (tg : IVec S1024 32) (r : Fin 1024) :
    shapeCast S1024x1 tg shapeCasts_S1024_S1024x1 (ValueIdx.ix2 r 0) = tg (ValueIdx.ix1 r) :=
  shapeCast_apply tg shapeCasts_S1024_S1024x1 _ _ (by
    rw [Shape.rowMajor_val_one, Shape.rowMajor_val_two]
    show r.val = r.val * 1 + 0
    omega)

end Cert.KernelIdeal.Gen

end
-- ==== Proof.KIValue.lean ====
import proofs.«422824_j5205500363383_3_alg».proof.Proof.KIFinal
import proofs.«422824_j5205500363383_3_alg».proof.Proof.KIValueOf

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.TailVal

variable {F : FTy → Type} [FloatOps F] [Named F]

variable (m : (ℓ : Loc nD τ sig) → Buf (Elt F) ℓ) (ρ : Dev nD → PrngReg)

theorem value_run : θ_run defs (onTc (τ := τ) (main (F := F))) ⟨m, fun _ => 0, ρ⟩ (fun r => ∀ c : Dev nD,
      r.2.mem ((c.tc : Thread nD τ).loc main_v84)
        = fin (disc (xnFn (m ((c.tc : Thread nD τ).loc main_arg0)))
                  (wbK (m ((c.tc : Thread nD τ).loc main_arg2)) (m ((c.tc : Thread nD τ).loc main_arg1)))
                  (btK (m ((c.tc : Thread nD τ).loc main_arg3)) (m ((c.tc : Thread nD τ).loc main_arg1))))
              (focal (nllK (A3 m c) (A4 m c) (A5 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  value_of m ρ (dats m) (A_eq m) (run_main m ρ)

end Cert.KernelIdeal.Gen

end
-- ==== Proof.LibRowOps.lean ====
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

theorem col_of_vec_apply {n : ℕ} (h : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] h v (ix2 p u) = v (ix1 p) := by
  refine broadcastInDim_apply _ h v _ (ix1 p) fun a => ?_
  match a with
  | ⟨0, _⟩ =>
    show p.val = if n = 1 then 0 else p.val
    split
    · have := p.isLt; omega
    · rfl

theorem rows_of_col_apply {n m : ℕ} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  refine broadcastInDim_apply _ h v _ (ix2 p (0 : Fin 1)) fun a => ?_
  match a with
  | ⟨0, _⟩ =>
    show p.val = if n = 1 then 0 else p.val
    split
    · have := p.isLt; omega
    · rfl
  | ⟨1, _⟩ => rfl

theorem of_scalar_apply {t : Shape} (h : (⟨0, ![]⟩ : Shape).BroadcastsInDim t ![])
    (v : (⟨0, ![]⟩ : Shape).Idx → α) (j : t.Idx) : broadcastInDim t ![] h v j = v ix0 :=
  broadcastInDim_apply _ h v j ix0 fun a => a.elim0

theorem rowSum_apply {n m : ℕ} {u : Shape} (src : FVec Ideal ⟨2, ![n, m]⟩ .f32) (init : u.Idx → Ideal .f32)
    (h' : (⟨2, ![n, m]⟩ : Shape).ReducesTo [1] ⟨1, ![n]⟩) (h : (⟨2, ![n, m]⟩ : Shape).Reduces [1] ⟨1, ![n]⟩)
    (hu : 0 < u.numel) (p : Fin n) :
    Host.reduceAdd src init h' hu (ix1 p) = init (Shape.Idx.first hu) + ∑ k : Fin m, src (ix2 p k) := by
  show Ideal.hostReduceAdd h' src (init (Shape.Idx.first hu)) (ix1 p) = _
  rw [Ideal.hostReduceAdd_single h' h]
  refine congrArg (init (Shape.Idx.first hu) + ·) (Finset.sum_congr rfl fun k _ => congrArg src (funext fun c => Fin.ext ?_))
  show h.liftVal (ix1 p) k.val c = _
  match c with
  | ⟨0, _⟩ => simp [Shape.Reduces.liftVal]
  | ⟨1, _⟩ => simp [Shape.Reduces.liftVal]

end Cert.RowOps

end
-- ==== Proof.LibRowMax.lean ====
import Idealize.ShloMosaic.Lib.ValueIdx
import Idealize.ShloMosaic.PureOps.Ideal.Laws

noncomputable section

namespace Cert.RowMax

open Idealize.ShloMosaic Idealize.ShloMosaic.ValueIdx

theorem ofBits_neg_inf_f32 : Ideal.ofBits .f32 0xFF800000#32 = (⊥ : EReal) := by simp [Ideal.ofBits, Ideal.ieee]

theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (⊥ : EReal) (fun n => src (ix2 p n)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg ((Finset.univ : Finset (Fin b)).fold max (⊥ : EReal)) (funext fun n => congrArg src (funext fun c => Fin.ext ?_))
  show h.liftVal (ix1 p) n.val c = _
  match c with
  | ⟨0, _⟩ => simp [Shape.Reduces.liftVal]
  | ⟨1, _⟩ => simp [Shape.Reduces.liftVal]

end Cert.RowMax

end
-- ==== Proof.KIStepRead.lean ====
import proofs.«422824_j5205500363383_3_alg».proof.Proof.Gen.KernelIdeal.Skeleton
import proofs.«422824_j5205500363383_3_alg».proof.Proof.Fold
import proofs.«422824_j5205500363383_3_alg».proof.Proof.LibRowOps
import proofs.«422824_j5205500363383_3_alg».proof.Proof.LibRowMax
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.StepRead

open Cert.KernelIdeal Cert.KernelIdeal.Gen Cert.Fold Idealize.ShloMosaic Idealize.ShloMosaic.ValueIdx

def tileScore (i : grid0.Coords) (w : Vec Ideal S1000x512 .f32) (x : Vec Ideal S1024x512 .bf16)
    (tg : Vec Ideal S1024x1 .i32) (r : Fin 1024) (k : Fin 1000) : EReal :=
  k0_pay11 (F := Ideal) i w x tg (ix2 r k)

def tileHit (i : grid0.Coords) (tg : Vec Ideal S1024x1 .i32) (r : Fin 1024) (k : Fin 1000) : Bool :=
  decide (k0_pay10 (F := Ideal) i tg (ix2 r k) = 1#1)

theorem rowMax_col (S : FVec Ideal S1024x1000 .f32) (r : Fin 1024) (u : Fin 1) :
    shapeCast S1024x1 (multiReduction (F := Ideal) .maximumf [1] S1024 S 0xFF800000#32 reduces_S1024x1000_S1024 (.inl rfl) rfl)
        shapeCasts_S1024_S1024x1 (ix2 r u)
      = (Finset.univ : Finset (Fin 1000)).fold max (⊥ : EReal) (fun n => S (ix2 r n)) :=
  (Cert.RowOps.shapeCast_a_a1_apply _ _ r u).trans (Cert.RowMax.laneMax_apply S _ _ _ r)

theorem rowSum_col (S : FVec Ideal S1024x1000 .f32) (r : Fin 1024) (u : Fin 1) :
    shapeCast S1024x1 (multiReduction (F := Ideal) .add [1] S1024 S 0x00000000#32 reduces_S1024x1000_S1024 (.inl rfl) rfl)
        shapeCasts_S1024_S1024x1 (ix2 r u)
      = ∑ n : Fin 1000, S (ix2 r n) :=
  (Cert.RowOps.shapeCast_a_a1_apply _ _ r u).trans (Cert.RowOps.laneSum_apply S _ _ _ r)

theorem col_bcast (v : FVec Ideal S1024x1 .f32) (r : Fin 1024) (n : Fin 1000) :
    broadcastTo S1024x1000 v broadcasts_S1024x1_S1024x1000 (ix2 r n) = v (ix2 r 0) :=
  Cert.RowOps.broadcastTo_a1_ab_apply v _ r n

theorem select_bit (c : BitVec 1) (a : EReal) :
    Scalar.select c a (Ideal.ofBits .f32 0x00000000#32) = if decide (c = 1#1) then a else 0 := by
  rw [Ideal.ofBits_zero_f32]
  rcases BitVec.eq_zero_or_eq_one c with h | h
  · subst h; rw [select_zero]; rfl
  · subst h; rw [select_one]; rfl

theorem pay3_id (v : Vec Ideal S1024x1 .f32) : k0_pay3 (F := Ideal) v = v :=
  shapeCast_self v _

theorem pay12_row (i : grid0.Coords) (w : Vec Ideal S1000x512 .f32) (x : Vec Ideal S1024x512 .bf16)
    (tg : Vec Ideal S1024x1 .i32) (mp : Vec Ideal S1024x1 .f32) (r : Fin 1024) :
    k0_pay12 (F := Ideal) i w x tg mp (ix2 r 0)
      = max (mp (ix2 r 0)) ((Finset.univ : Finset (Fin 1000)).fold max (⊥ : EReal) (tileScore i w x tg r)) := by
  show max (mp (ix2 r 0)) _ = _
  exact congrArg (max (mp (ix2 r 0))) (rowMax_col (k0_pay11 (F := Ideal) i w x tg) r 0)

theorem pay1_row (S : FVec Ideal S1024x1000 .f32) (m' d : FVec Ideal S1024x1 .f32) (lp : Vec Ideal S1024x1 .f32)
    (r : Fin 1024) :
    k0_pay1 (F := Ideal) S m' d lp (ix2 r 0)
      = Ideal.exp (d (ix2 r 0)) * lp (ix2 r 0) + ∑ n : Fin 1000, Ideal.exp (S (ix2 r n) - m' (ix2 r 0)) := by
  unfold k0_pay1
  refine (congrFun (shapeCast_self _ _) _).trans ?_
  show Ideal.exp (d (ix2 r 0)) * lp (ix2 r 0) + _ = _
  refine congrArg (Ideal.exp (d (ix2 r 0)) * lp (ix2 r 0) + ·) ?_
  refine (rowSum_col _ r 0).trans ?_
  refine Finset.sum_congr rfl fun n _ => ?_
  show Ideal.exp (S (ix2 r n) - broadcastTo S1024x1000 m' broadcasts_S1024x1_S1024x1000 (ix2 r n)) = _
  rw [col_bcast]

theorem pay2_row (mask : IVec S1024x1000 1) (S : FVec Ideal S1024x1000 .f32) (tp : Vec Ideal S1024x1 .f32)
    (r : Fin 1024) :
    k0_pay2 (F := Ideal) mask S tp (ix2 r 0)
      = tp (ix2 r 0) + ∑ n : Fin 1000, (if decide (mask (ix2 r n) = 1#1) then S (ix2 r n) else 0) := by
  unfold k0_pay2
  refine (congrFun (shapeCast_self _ _) _).trans ?_
  show tp (ix2 r 0) + _ = _
  refine congrArg (tp (ix2 r 0) + ·) ?_
  refine (rowSum_col _ r 0).trans ?_
  refine Finset.sum_congr rfl fun n _ => ?_
  exact select_bit (mask (ix2 r n)) (S (ix2 r n))

section Step
variable (i : grid0.Coords) (w : Vec Ideal S1000x512 .f32) (x : Vec Ideal S1024x512 .bf16)
  (tg : Vec Ideal S1024x1 .i32) (mp lp tp : Vec Ideal S1024x1 .f32) (r : Fin 1024)

theorem newM_row :
    k0_pay3 (F := Ideal) (k0_pay12 i w x tg mp) (ix2 r 0)
      = (tileStep (tileScore i w x tg r) (tileHit i tg r) (mp (ix2 r 0), lp (ix2 r 0), tp (ix2 r 0))).1 := by
  rw [pay3_id]
  exact pay12_row i w x tg mp r

theorem newL_row :
    k0_pay1 (F := Ideal) (k0_pay11 i w x tg) (k0_pay12 i w x tg mp) (k0_pay13 i w x tg mp mp) lp (ix2 r 0)
      = (tileStep (tileScore i w x tg r) (tileHit i tg r) (mp (ix2 r 0), lp (ix2 r 0), tp (ix2 r 0))).2.1 := by
  refine (pay1_row _ _ _ lp r).trans ?_
  have hd : k0_pay13 (F := Ideal) i w x tg mp mp (ix2 r 0)
      = mp (ix2 r 0) - k0_pay12 (F := Ideal) i w x tg mp (ix2 r 0) := rfl
  rw [hd, pay12_row]
  rfl

theorem newT_row :
    k0_pay2 (F := Ideal) (k0_pay10 i tg) (k0_pay11 i w x tg) tp (ix2 r 0)
      = (tileStep (tileScore i w x tg r) (tileHit i tg r) (mp (ix2 r 0), lp (ix2 r 0), tp (ix2 r 0))).2.2 :=
  pay2_row _ _ tp r

end Step

theorem reset_rows (r : Fin 1024) :
    k0_pay7 (F := Ideal) (ix2 r 0) = ⊥ ∧ k0_pay8 (F := Ideal) (ix2 r 0) = 0 ∧ k0_pay9 (F := Ideal) (ix2 r 0) = 0 := by
  refine ⟨?_, ?_, ?_⟩
  · unfold k0_pay7
    refine (congrFun (shapeCast_self _ _) _).trans ?_
    exact Cert.RowMax.ofBits_neg_inf_f32
  · unfold k0_pay8
    refine (congrFun (shapeCast_self _ _) _).trans ?_
    exact Ideal.ofBits_zero_f32
  · unfold k0_pay9
    refine (congrFun (shapeCast_self _ _) _).trans ?_
    exact Ideal.ofBits_zero_f32

theorem out_rows (v : Vec Ideal S1024x1 .f32) (r : Fin 1024) :
    k0_pay4 (F := Ideal) v (ix3 0 r 0) = v (ix2 r 0) ∧ k0_pay5 (F := Ideal) v (ix3 0 r 0) = v (ix2 r 0)
      ∧ k0_pay6 (F := Ideal) v (ix3 0 r 0) = v (ix2 r 0) :=
  ⟨shapeCast_ab_1ab_apply v _ 0 r 0, shapeCast_ab_1ab_apply v _ 0 r 0, shapeCast_ab_1ab_apply v _ 0 r 0⟩

end Cert.KernelIdeal.StepRead

end
-- ==== Proof.KIAccum.lean ====
/- After grid point n = 50 h + k, row r of the three carried columns (running maximum, normaliser, marked-score sum) is the
   fold of tiles 0 … k of half h, and at k = 49 the three outputs receive those columns. -/
import proofs.«422824_j5205500363383_3_alg».proof.Proof.KIOuts
import proofs.«422824_j5205500363383_3_alg».proof.Proof.KIStepRead
import Idealize.ShloMosaic.Lib.Pipeline.Value

set_option maxRecDepth 16384

noncomputable section

open scoped BigOperators

namespace Cert.KernelIdeal.Accum

open Idealize.ShloMosaic Idealize.ShloMosaic.TcCoe Idealize.ShloMosaic.Tactic Idealize.ShloMosaic.ValueIdx
open Idealize.SL Idealize.SL.Sem
open Cert.KernelIdeal Cert.KernelIdeal.Gen Cert.KernelIdeal.StepRead Cert.Fold

section Pieces
variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The three columns the body stores, as its payloads of the point's blocks and of the columns `s0 s1 s2` it loaded. -/
def stepPay (i : grid0.Coords) (x0 : Vec F S1024x512 .bf16) (x1 : Vec F S1000x512 .f32) (x2 : Vec F S1024x1 .i32) (s0 s1 s2 : Vec F S1024x1 .f32) : Vec F S1024x1 .f32 × Vec F S1024x1 .f32 × Vec F S1024x1 .f32 :=
  (k0_pay3 (k0_pay12 i x1 x0 x2 s0), k0_pay1 (k0_pay11 i x1 x0 x2) (k0_pay12 i x1 x0 x2 s0) (k0_pay13 i x1 x0 x2 s0 s0) s1,
    k0_pay2 (k0_pay10 i x2) (k0_pay11 i x1 x0 x2) s2)

/-- The three outputs' components. -/
def outs3 (o : Out6 F) : Vec F S1x1024x1 .f32 × Vec F S1x1024x1 .f32 × Vec F S1x1024x1 .f32 := (o.1, o.2.1, o.2.2.1)

variable (c : Dev nD) (i : grid0.Coords) (arg2 : Memref sig .tc .vmem S1024x512 .bf16) (harg2 : arg2.IsWhole) (arg3 : Memref sig .tc .vmem S1000x512 .f32) (harg3 : arg3.IsWhole) (arg4 : Memref sig .tc .vmem S1024x1 .i32) (harg4 : arg4.IsWhole) (arg5 : Memref sig .tc .vmem S1x1024x1 .f32) (harg5 : arg5.IsWhole) (arg6 : Memref sig .tc .vmem S1x1024x1 .f32) (harg6 : arg6.IsWhole) (arg7 : Memref sig .tc .vmem S1x1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (x0 : Vec F S1024x512 .bf16) (x1 : Vec F S1000x512 .f32) (x2 : Vec F S1024x1 .i32)

/-- The resetting case stores the reset values and then the step over them: the later store covers the earlier. -/
theorem outs0_A_eq (hc0 : cond0_0 i) (hc1 : ¬cond0_1 i) :
    (outs0_A c i arg2 harg2 arg3 harg3 arg4 harg4 arg5 harg5 arg6 harg6 arg7 harg7 arg8 harg8 arg9 harg9 arg10 harg10 hc0 hc1 x0 x1 x2).2.2.2 = stepPay i x0 x1 x2 k0_pay7 k0_pay8 k0_pay9 := by
  unfold outs0_A back6 stepPay
  dsimp only
  rw [View.read_writes_eq_canon VS0_0 _ _ (scover0_A_0 c i arg2 harg2 arg3 harg3 arg4 harg4 arg5 harg5 arg6 harg6 arg7 harg7 arg8 harg8 arg9 harg9 arg10 harg10 hc0 hc1 x0 x1 x2),
    View.read_writes_eq_canon VS0_1 _ _ (scover0_A_1 c i arg2 harg2 arg3 harg3 arg4 harg4 arg5 harg5 arg6 harg6 arg7 harg7 arg8 harg8 arg9 harg9 arg10 harg10 hc0 hc1 x0 x1 x2),
    View.read_writes_eq_canon VS0_2 _ _ (scover0_A_2 c i arg2 harg2 arg3 harg3 arg4 harg4 arg5 harg5 arg6 harg6 arg7 harg7 arg8 harg8 arg9 harg9 arg10 harg10 hc0 hc1 x0 x1 x2)]
  unfold kernelRun0_A
  dsimp only
  sl_unfold_words
  simp only [View.canon_cons_unit_zero (S := S1024x1) hz2, View.readAt_eq_ld, harg2.read_unread, harg3.read_unread, harg4.read_unread,
    View.ld_unit_zero (S := S1000x512) hz2, View.ld_unit_zero (S := S1024x512) hz2, View.ld_unit_zero (S := S1024x1) hz2,
    harg8.read_unread, harg9.read_unread, harg10.read_unread, View.readCov_unit_zero (S := S1024x1) _ hz2]

theorem outs0_B_eq (hc0 : ¬cond0_0 i) (hc1 : ¬cond0_1 i) (xs0 xs1 xs2 : Vec F S1024x1 .f32) :
    (outs0_B c i arg2 harg2 arg3 harg3 arg4 harg4 arg5 harg5 arg6 harg6 arg7 harg7 arg8 harg8 arg9 harg9 arg10 harg10 hc0 hc1 x0 x1 x2 xs0 xs1 xs2).2.2.2 = stepPay i x0 x1 x2 xs0 xs1 xs2 := by
  unfold outs0_B back6 stepPay
  dsimp only
  rw [View.read_writes_eq_canon VS0_0 _ _ (scover0_B_0 c i arg2 harg2 arg3 harg3 arg4 harg4 arg5 harg5 arg6 harg6 arg7 harg7 arg8 harg8 arg9 harg9 arg10 harg10 hc0 hc1 x0 x1 x2 xs0 xs1 xs2),
    View.read_writes_eq_canon VS0_1 _ _ (scover0_B_1 c i arg2 harg2 arg3 harg3 arg4 harg4 arg5 harg5 arg6 harg6 arg7 harg7 arg8 harg8 arg9 harg9 arg10 harg10 hc0 hc1 x0 x1 x2 xs0 xs1 xs2),
    View.read_writes_eq_canon VS0_2 _ _ (scover0_B_2 c i arg2 harg2 arg3 harg3 arg4 harg4 arg5 harg5 arg6 harg6 arg7 harg7 arg8 harg8 arg9 harg9 arg10 harg10 hc0 hc1 x0 x1 x2 xs0 xs1 xs2)]
  unfold kernelRun0_B
  dsimp only
  sl_unfold_words
  simp only [View.canon_unit_zero (S := S1024x1) hz2, View.readAt_eq_ld, harg2.read_unread, harg3.read_unread, harg4.read_unread,
    View.ld_unit_zero (S := S1000x512) hz2, View.ld_unit_zero (S := S1024x512) hz2, View.ld_unit_zero (S := S1024x1) hz2,
    harg8.read_unread, harg9.read_unread, harg10.read_unread, View.readCov_unit_zero (S := S1024x1) _ hz2]

theorem outs0_C_s0 (hc0 : ¬cond0_0 i) (hc1 : cond0_1 i) (xs0 xs1 xs2 : Vec F S1024x1 .f32) :
    (outs0_C c i arg2 harg2 arg3 harg3 arg4 harg4 arg5 harg5 arg6 harg6 arg7 harg7 arg8 harg8 arg9 harg9 arg10 harg10 hc0 hc1 x0 x1 x2 xs0 xs1 xs2).2.2.2.1 = k0_pay3 (k0_pay12 i x1 x0 x2 xs0) := by
  unfold outs0_C back6
  dsimp only
  rw [View.read_writes_eq_canon VS0_0 _ _ (scover0_C_0 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  simp only [View.canon_unit_zero (S := S1024x1) hz2, View.readAt_eq_ld, harg2.read_unread, harg3.read_unread, harg4.read_unread,
    View.ld_unit_zero (S := S1000x512) hz2, View.ld_unit_zero (S := S1024x512) hz2, View.ld_unit_zero (S := S1024x1) hz2,
    harg8.read_unread, harg9.read_unread, harg10.read_unread, View.readCov_unit_zero (S := S1024x1) _ hz2]

theorem outs0_C_s1 (hc0 : ¬cond0_0 i) (hc1 : cond0_1 i) (xs0 xs1 xs2 : Vec F S1024x1 .f32) :
    (outs0_C c i arg2 harg2 arg3 harg3 arg4 harg4 arg5 harg5 arg6 harg6 arg7 harg7 arg8 harg8 arg9 harg9 arg10 harg10 hc0 hc1 x0 x1 x2 xs0 xs1 xs2).2.2.2.2.1 = k0_pay1 (k0_pay11 i x1 x0 x2) (k0_pay12 i x1 x0 x2 xs0) (k0_pay13 i x1 x0 x2 xs0 xs0) xs1 := by
  unfold outs0_C back6
  dsimp only
  rw [View.read_writes_eq_canon VS0_1 _ _ (scover0_C_1 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  simp only [View.canon_unit_zero (S := S1024x1) hz2, View.readAt_eq_ld, harg2.read_unread, harg3.read_unread, harg4.read_unread,
    View.ld_unit_zero (S := S1000x512) hz2, View.ld_unit_zero (S := S1024x512) hz2, View.ld_unit_zero (S := S1024x1) hz2,
    harg8.read_unread, harg9.read_unread, harg10.read_unread, View.readCov_unit_zero (S := S1024x1) _ hz2]

theorem outs0_C_s2 (hc0 : ¬cond0_0 i) (hc1 : cond0_1 i) (xs0 xs1 xs2 : Vec F S1024x1 .f32) :
    (outs0_C c i arg2 harg2 arg3 harg3 arg4 harg4 arg5 harg5 arg6 harg6 arg7 harg7 arg8 harg8 arg9 harg9 arg10 harg10 hc0 hc1 x0 x1 x2 xs0 xs1 xs2).2.2.2.2.2 = k0_pay2 (k0_pay10 i x2) (k0_pay11 i x1 x0 x2) xs2 := by
  unfold outs0_C back6
  dsimp only
  rw [View.read_writes_eq_canon VS0_2 _ _ (scover0_C_2 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  simp only [View.canon_unit_zero (S := S1024x1) hz2, View.readAt_eq_ld, harg2.read_unread, harg3.read_unread, harg4.read_unread,
    View.ld_unit_zero (S := S1000x512) hz2, View.ld_unit_zero (S := S1024x512) hz2, View.ld_unit_zero (S := S1024x1) hz2,
    harg8.read_unread, harg9.read_unread, harg10.read_unread, View.readCov_unit_zero (S := S1024x1) _ hz2]

theorem outs0_C_scratch (hc0 : ¬cond0_0 i) (hc1 : cond0_1 i) (xs0 xs1 xs2 : Vec F S1024x1 .f32) :
    (outs0_C c i arg2 harg2 arg3 harg3 arg4 harg4 arg5 harg5 arg6 harg6 arg7 harg7 arg8 harg8 arg9 harg9 arg10 harg10 hc0 hc1 x0 x1 x2 xs0 xs1 xs2).2.2.2 = stepPay i x0 x1 x2 xs0 xs1 xs2 :=
  Prod.ext (outs0_C_s0 ..) (Prod.ext (outs0_C_s1 ..) (outs0_C_s2 ..))

/-- The storing case also copies the three new columns into the outputs, with a leading unit axis. -/
theorem outs0_C_outs (hc0 : ¬cond0_0 i) (hc1 : cond0_1 i) (xs0 xs1 xs2 : Vec F S1024x1 .f32) :
    outs3 (outs0_C c i arg2 harg2 arg3 harg3 arg4 harg4 arg5 harg5 arg6 harg6 arg7 harg7 arg8 harg8 arg9 harg9 arg10 harg10 hc0 hc1 x0 x1 x2 xs0 xs1 xs2)
      = (k0_pay4 (stepPay i x0 x1 x2 xs0 xs1 xs2).1, k0_pay5 (stepPay i x0 x1 x2 xs0 xs1 xs2).2.1, k0_pay6 (stepPay i x0 x1 x2 xs0 xs1 xs2).2.2) := by
  unfold outs3 outs0_C back6 stepPay
  dsimp only
  rw [View.read_writes_eq_canon VO0_3 _ _ (cover0_C_3 c i arg2 harg2 arg3 harg3 arg4 harg4 arg5 harg5 arg6 harg6 arg7 harg7 arg8 harg8 arg9 harg9 arg10 harg10 hc0 hc1 x0 x1 x2 xs0 xs1 xs2),
    View.read_writes_eq_canon VO0_4 _ _ (cover0_C_4 c i arg2 harg2 arg3 harg3 arg4 harg4 arg5 harg5 arg6 harg6 arg7 harg7 arg8 harg8 arg9 harg9 arg10 harg10 hc0 hc1 x0 x1 x2 xs0 xs1 xs2),
    View.read_writes_eq_canon VO0_5 _ _ (cover0_C_5 c i arg2 harg2 arg3 harg3 arg4 harg4 arg5 harg5 arg6 harg6 arg7 harg7 arg8 harg8 arg9 harg9 arg10 harg10 hc0 hc1 x0 x1 x2 xs0 xs1 xs2)]
  unfold kernelRun0_C
  dsimp only
  sl_unfold_words
  simp only [View.canon_unit_zero (S := S1x1024x1) hz3, View.readAt_eq_ld, harg2.read_unread, harg3.read_unread, harg4.read_unread,
    View.ld_unit_zero (S := S1000x512) hz2, View.ld_unit_zero (S := S1024x512) hz2, View.ld_unit_zero (S := S1024x1) hz2,
    harg8.read_unread, harg9.read_unread, harg10.read_unread, View.readCov_unit_zero (S := S1024x1) _ hz2]

end Pieces

/-- States that restart from `init` at every multiple of 50 and otherwise fold in one more tile are sweeps of their half. -/
theorem sweep_of_steps {κ : Type} [Fintype κ] (N : ℕ) (s : ℕ → κ → EReal) (hit : ℕ → κ → Bool) (st : ℕ → St)
    (hA : ∀ n, n < N → n % 50 = 0 → st n = tileStep (s n) (hit n) init)
    (hB : ∀ n, n < N → ¬n % 50 = 0 → st n = tileStep (s n) (hit n) (st (n - 1))) :
    ∀ n, n < N → st n = sweep (fun c' => s (n / 50 * 50 + c')) (fun c' => hit (n / 50 * 50 + c')) (n % 50) := by
  intro n
  induction n with
  | zero => intro hn; rw [hA 0 hn rfl]; rfl
  | succ n ih =>
    intro hn
    by_cases h0 : (n + 1) % 50 = 0
    · rw [hA (n + 1) hn h0, h0, sweep_zero]
      have e : (n + 1) / 50 * 50 + 0 = n + 1 := by omega
      show tileStep (s (n + 1)) (hit (n + 1)) init
        = tileStep (s ((n + 1) / 50 * 50 + 0)) (hit ((n + 1) / 50 * 50 + 0)) init
      rw [e]
    · rw [hB (n + 1) hn h0, Nat.add_sub_cancel, ih (by omega)]
      have e1 : (n + 1) / 50 = n / 50 := by omega
      have e2 : (n + 1) % 50 = n % 50 + 1 := by omega
      rw [e1, e2, sweep_succ]
      have e3 : n / 50 * 50 + (n % 50 + 1) = n + 1 := by omega
      show tileStep (s (n + 1)) (hit (n + 1)) _
        = tileStep (s (n / 50 * 50 + (n % 50 + 1))) (hit (n / 50 * 50 + (n % 50 + 1))) _
      rw [e3]

/-- Row r of three columns. -/
def row3 (s : Vec Ideal S1024x1 .f32 × Vec Ideal S1024x1 .f32 × Vec Ideal S1024x1 .f32) (r : Fin 1024) : St := (s.1 (ix2 r 0), s.2.1 (ix2 r 0), s.2.2 (ix2 r 0))

/-- Row r of the stored columns is the fold step on row r of the loaded ones. -/
theorem step_triple (i : grid0.Coords) (w : Vec Ideal S1000x512 .f32) (x : Vec Ideal S1024x512 .bf16)
    (tg : Vec Ideal S1024x1 .i32) (s : Vec Ideal S1024x1 .f32 × Vec Ideal S1024x1 .f32 × Vec Ideal S1024x1 .f32) (r : Fin 1024) :
    row3 (stepPay (F := Ideal) i x w tg s.1 s.2.1 s.2.2) r = tileStep (tileScore i w x tg r) (tileHit i tg r) (row3 s r) :=
  Prod.ext (newM_row i w x tg s.1 s.2.1 s.2.2 r) (Prod.ext (newL_row i w x tg s.1 s.2.1 s.2.2 r) (newT_row i w x tg s.1 s.2.1 s.2.2 r))

/-- The reset values are the empty state. -/
theorem step_triple_reset (i : grid0.Coords) (w : Vec Ideal S1000x512 .f32) (x : Vec Ideal S1024x512 .bf16)
    (tg : Vec Ideal S1024x1 .i32) (r : Fin 1024) :
    row3 (stepPay i x w tg (k0_pay7 (F := Ideal)) (k0_pay8 (F := Ideal)) (k0_pay9 (F := Ideal))) r = tileStep (tileScore i w x tg r) (tileHit i tg r) init :=
  (step_triple i w x tg (k0_pay7 (F := Ideal), k0_pay8 (F := Ideal), k0_pay9 (F := Ideal)) r).trans
    (congrArg (tileStep _ _) (Prod.ext (reset_rows r).1 (Prod.ext (reset_rows r).2.1 (reset_rows r).2.2)))

section Points
variable (m : (ℓ : Loc nD τ sig) → Buf (Elt Ideal) ℓ) (c : Dev nD)

abbrev xblk (t : Fin cfg0.N) : Vec Ideal S1024x512 .bf16 := iblk m c 0 t
abbrev wblk (t : Fin cfg0.N) : Vec Ideal S1000x512 .f32 := iblk m c 1 t
abbrev tblk (t : Fin cfg0.N) : Vec Ideal S1024x1 .i32 := iblk m c 2 t

def pt (n : ℕ) : Fin cfg0.N := ⟨min n 99, by rw [show cfg0.N = 100 from N_0]; omega⟩

theorem pt_of_lt (n : ℕ) (hn : n < cfg0.N) : pt n = ⟨n, hn⟩ :=
  Fin.ext (by have h : n < 100 := lt_of_lt_of_eq hn N_0; show min n 99 = n; omega)

def scAt (r : Fin 1024) (t : Fin cfg0.N) : Fin 1000 → EReal :=
  tileScore (grid0.coords t) (wblk m c t) (xblk m c t) (tblk m c t) r
def htAt (r : Fin 1024) (t : Fin cfg0.N) : Fin 1000 → Bool :=
  tileHit (grid0.coords t) (tblk m c t) r

def sc (r : Fin 1024) (h c' : ℕ) : Fin 1000 → EReal := scAt m c r (pt (h * 50 + c'))
def ht (r : Fin 1024) (h c' : ℕ) : Fin 1000 → Bool := htAt m c r (pt (h * 50 + c'))

theorem sc_apply (r : Fin 1024) (h c' : ℕ) (k : Fin 1000) :
    sc m c r h c' k = tileScore (grid0.coords (pt (h * 50 + c'))) (iblk m c 1 (pt (h * 50 + c')))
      (iblk m c 0 (pt (h * 50 + c'))) (iblk m c 2 (pt (h * 50 + c'))) r k := rfl
theorem ht_apply (r : Fin 1024) (h c' : ℕ) (k : Fin 1000) :
    ht m c r h c' k = tileHit (grid0.coords (pt (h * 50 + c'))) (iblk m c 2 (pt (h * 50 + c'))) r k := rfl

def rowSt (n : ℕ) (hn : n < cfg0.N) (r : Fin 1024) : St := row3 (outsAt0 (F := Ideal) m c n hn).2.2.2 r

theorem rowSt_A (t : Fin cfg0.N) (h0 : t.val % 50 = 0) (r : Fin 1024) :
    rowSt m c t.val t.isLt r = tileStep (scAt m c r t) (htAt m c r t) init := by
  unfold rowSt
  rw [outsAt0_A m c t h0 (by omega)]
  exact (congrArg (row3 · r) (outs0_A_eq (F := Ideal) c (grid0.coords t) _ _ _ _ _ _ _ _ _ _ _ _ _ _ _ _ _ _ (iblk m c 0 t) (iblk m c 1 t) (iblk m c 2 t) _ _)).trans (step_triple_reset (grid0.coords t) (wblk m c t) (xblk m c t) (tblk m c t) r)

theorem rowSt_step (t : Fin cfg0.N) (h0 : ¬t.val % 50 = 0) (r : Fin 1024) :
    rowSt m c t.val t.isLt r
      = tileStep (scAt m c r t) (htAt m c r t) (rowSt m c (t.val - 1) (Nat.lt_of_le_of_lt (Nat.sub_le _ _) t.isLt) r) := by
  unfold rowSt
  by_cases h1 : t.val % 50 = 49
  · rw [outsAt0_C m c t h0 h1]
    exact (congrArg (row3 · r) (outs0_C_scratch (F := Ideal) c (grid0.coords t) _ _ _ _ _ _ _ _ _ _ _ _ _ _ _ _ _ _ (iblk m c 0 t) (iblk m c 1 t) (iblk m c 2 t) _ _ _ _ _)).trans (step_triple (grid0.coords t) (wblk m c t) (xblk m c t) (tblk m c t) _ r)
  · rw [outsAt0_B m c t h0 h1]
    exact (congrArg (row3 · r) (outs0_B_eq (F := Ideal) c (grid0.coords t) _ _ _ _ _ _ _ _ _ _ _ _ _ _ _ _ _ _ (iblk m c 0 t) (iblk m c 1 t) (iblk m c 2 t) _ _ _ _ _)).trans (step_triple (grid0.coords t) (wblk m c t) (xblk m c t) (tblk m c t) _ r)

/-- At the last tile of a half the outputs at (0, r, 0) are row r of the columns just stored. -/
theorem outs_eq_rowSt (t : Fin cfg0.N) (h1 : t.val % 50 = 49) (r : Fin 1024) :
    (fun p : Vec Ideal S1x1024x1 .f32 × Vec Ideal S1x1024x1 .f32 × Vec Ideal S1x1024x1 .f32 => (p.1 (ix3 0 r 0), p.2.1 (ix3 0 r 0), p.2.2 (ix3 0 r 0)))
      (outs3 (outsAt0 (F := Ideal) m c t.val t.isLt)) = rowSt m c t.val t.isLt r := by
  unfold rowSt
  rw [outsAt0_C m c t (by omega) h1]
  unfold ptC
  rw [outs0_C_scratch (F := Ideal) c (grid0.coords t) _ _ _ _ _ _ _ _ _ _ _ _ _ _ _ _ _ _ (iblk m c 0 t) (iblk m c 1 t) (iblk m c 2 t) _ _ _ _ _, outs0_C_outs (F := Ideal) c (grid0.coords t) _ _ _ _ _ _ _ _ _ _ _ _ _ _ _ _ _ _ (iblk m c 0 t) (iblk m c 1 t) (iblk m c 2 t) _ _ _ _ _]
  unfold row3
  dsimp only
  rw [(out_rows _ r).1, (out_rows _ r).2.1, (out_rows _ r).2.2]

theorem rowSt_sweep (n : ℕ) (hn : n < cfg0.N) (r : Fin 1024) :
    rowSt m c n hn r = sweep (sc m c r (n / 50)) (ht m c r (n / 50)) (n % 50) := by
  have hA : ∀ k, k < cfg0.N → k % 50 = 0 →
      (if h : k < cfg0.N then rowSt m c k h r else init)
        = tileStep (scAt m c r (pt k)) (htAt m c r (pt k)) init := by
    intro k hk h0
    rw [dif_pos hk, pt_of_lt k hk]
    exact rowSt_A m c ⟨k, hk⟩ h0 r
  have hB : ∀ k, k < cfg0.N → ¬k % 50 = 0 →
      (if h : k < cfg0.N then rowSt m c k h r else init)
        = tileStep (scAt m c r (pt k)) (htAt m c r (pt k)) (if h : k - 1 < cfg0.N then rowSt m c (k - 1) h r else init) := by
    intro k hk h0
    have hk' : k - 1 < cfg0.N := Nat.lt_of_le_of_lt (Nat.sub_le _ _) hk
    rw [dif_pos hk, dif_pos hk', pt_of_lt k hk]
    exact rowSt_step m c ⟨k, hk⟩ h0 r
  have key : (if h : n < cfg0.N then rowSt m c n h r else init)
      = sweep (fun c' => scAt m c r (pt (n / 50 * 50 + c'))) (fun c' => htAt m c r (pt (n / 50 * 50 + c'))) (n % 50) :=
    sweep_of_steps cfg0.N (fun k => scAt m c r (pt k)) (fun k => htAt m c r (pt k))
      (fun k => if h : k < cfg0.N then rowSt m c k h r else init) hA hB n hn
  rw [dif_pos hn] at key
  exact key

/-- After the last tile of a half, the three outputs at (0, r, 0) are the sweep of the half's 50 tiles. -/
theorem outs_row (n : ℕ) (hn : n < cfg0.N) (h49 : n % 50 = 49) (r : Fin 1024) :
    let o := outsAt0 (F := Ideal) m c n hn
    (o.1 (ix3 0 r 0), o.2.1 (ix3 0 r 0), o.2.2.1 (ix3 0 r 0))
      = sweep (sc m c r (n / 50)) (ht m c r (n / 50)) 49 := by
  have h := rowSt_sweep m c n hn r
  rw [h49] at h
  exact (outs_eq_rowSt m c ⟨n, hn⟩ h49 r).trans h

end Points

end Cert.KernelIdeal.Accum

end
-- ==== Proof.KIBlocks.lean ====
import proofs.«422824_j5205500363383_3_alg».proof.Proof.KIBase
import Idealize.ShloMosaic.Lib.ValueIdx
import Idealize.ShloMosaic.Lib.Pipeline.Value

noncomputable section

namespace Cert.KernelIdeal.Gen

open Idealize.ShloMosaic Idealize.ShloMosaic.TcCoe Idealize.SL.Sem

variable {F : FTy → Type} [FloatOps F] [Named F]

variable (m : (ℓ : Loc nD τ sig) → Buf (Elt F) ℓ)

abbrev xblk (c : Dev nD) (t : Fin cfg0.N) : Vec F S1024x512 .bf16 := iblk m c 0 t

abbrev wblk (c : Dev nD) (t : Fin cfg0.N) : Vec F S1000x512 .f32 := iblk m c 1 t

abbrev tblk (c : Dev nD) (t : Fin cfg0.N) : Vec F S1024x1 .i32 := iblk m c 2 t

abbrev xarr (c : Dev nD) : Vec F S1024x512 .bf16 := V m c main_v8

abbrev warr (c : Dev nD) : Vec F S100000x512 .f32 := V m c main_arg2

abbrev tarr (c : Dev nD) : Vec F S1024x1 .i32 := V m c main_v9

theorem coords_val (t : Fin cfg0.N) : ((grid0.coords t) 0).val = t.val / 50 ∧ ((grid0.coords t) 1).val = t.val % 50 :=
  (by decide +kernel : ∀ t : Fin grid0.N, ((grid0.coords t) 0).val = t.val / 50 ∧ ((grid0.coords t) 1).val = t.val % 50) t

theorem index_win0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem index_win1 : ∀ t : Fin cfg0.N, win0_1.index t (0 : Fin 2) = (t.val / 50) * 50 + t.val % 50 ∧ win0_1.index t (1 : Fin 2) = 0 :=
  (by decide +kernel : ∀ t : Fin grid0.N, win0_1.index t (0 : Fin 2) = (t.val / 50) * 50 + t.val % 50 ∧ win0_1.index t (1 : Fin 2) = 0)

theorem index_win2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem xblk_eq (c : Dev nD) (t : Fin cfg0.N) : xblk m c t = xarr m c := by
  funext y
  show V m c main_v8 (((cfg0.win 0).blk t).view.emb y) = V m c main_v8 y
  obtain ⟨e0, e1⟩ := index_win0 t
  refine congrArg (V m c main_v8) (funext fun a => Fin.ext ?_)
  match a with
  | ⟨0, _⟩ => show win0_0.index t (0 : Fin 2) * 1024 + 1 * (y 0).val = (y 0).val; omega
  | ⟨1, _⟩ => show win0_0.index t (1 : Fin 2) * 512 + 1 * (y 1).val = (y 1).val; omega

theorem tblk_eq (c : Dev nD) (t : Fin cfg0.N) : tblk m c t = tarr m c := by
  funext y
  show V m c main_v9 (((cfg0.win 2).blk t).view.emb y) = V m c main_v9 y
  obtain ⟨e0, e1⟩ := index_win2 t
  refine congrArg (V m c main_v9) (funext fun a => Fin.ext ?_)
  match a with
  | ⟨0, _⟩ => show win0_2.index t (0 : Fin 2) * 1024 + 1 * (y 0).val = (y 0).val; omega
  | ⟨1, _⟩ => show win0_2.index t (1 : Fin 2) * 1 + 1 * (y 1).val = (y 1).val; omega

theorem wrow_lt (t : Fin cfg0.N) (k : Fin 1000) : (t.val / 50) * 50000 + (t.val % 50) * 1000 + k.val < 100000 := by
  have ht : t.val < 100 := t.isLt
  have hk := k.isLt
  omega

theorem wblk_apply (c : Dev nD) (t : Fin cfg0.N) (k : Fin 1000) (d : Fin 512) :
    wblk m c t (ValueIdx.ix2 k d)
      = warr m c (ValueIdx.ix2 (⟨(t.val / 50) * 50000 + (t.val % 50) * 1000 + k.val, wrow_lt t k⟩ : Fin 100000) d) := by
  show V m c main_arg2 (((cfg0.win 1).blk t).view.emb (ValueIdx.ix2 k d)) = V m c main_arg2 _
  obtain ⟨e0, e1⟩ := index_win1 t
  refine congrArg (V m c main_arg2) (funext fun a => Fin.ext ?_)
  match a with
  | ⟨0, _⟩ =>
    show win0_1.index t (0 : Fin 2) * 1000 + 1 * k.val = (t.val / 50) * 50000 + (t.val % 50) * 1000 + k.val
    omega
  | ⟨1, _⟩ =>
    show win0_1.index t (1 : Fin 2) * 512 + 1 * d.val = d.val
    omega

end Cert.KernelIdeal.Gen

end
-- ==== Proof.LibOnlineSoftmax.lean ====
import Idealize.ShloMosaic.PureOps.Ideal

noncomputable section

open scoped BigOperators

namespace Cert.OnlineSoftmax

open Idealize.ShloMosaic

def wt (s : EReal) : ℝ := (Ideal.exp s).toReal

theorem wt_bot : wt ⊥ = 0 := by
  simp [wt]

theorem wt_coe (σ : ℝ) : wt (σ : EReal) = Real.exp σ := by
  simp [wt]

theorem wt_nonneg (s : EReal) : 0 ≤ wt s := by
  induction s using EReal.rec with
  | bot => rw [wt_bot]
  | coe r => rw [wt_coe]; exact (Real.exp_pos r).le
  | top => simp [wt]

private theorem wt_pos {s : EReal} (h1 : s ≠ ⊤) (h2 : s ≠ ⊥) : 0 < wt s := by
  induction s using EReal.rec with
  | bot => exact absurd rfl h2
  | coe r => rw [wt_coe]; exact Real.exp_pos r
  | top => exact absurd rfl h1

theorem sum_wt_pos {ι : Type*} [Fintype ι] (s : ι → EReal) (hs : ∀ k, s k ≠ ⊤) (hne : ∃ k, s k ≠ ⊥) :
    0 < ∑ k, wt (s k) := by
  obtain ⟨k, hk⟩ := hne
  exact Finset.sum_pos' (fun i _ => wt_nonneg (s i)) ⟨k, Finset.mem_univ k, wt_pos (hs k) hk⟩

theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

private theorem fold_real {ι : Type*} [Fintype ι] (s : ι → EReal) (hs : ∀ k, s k ≠ ⊤)
    (hne : ∃ k, s k ≠ ⊥) : ∃ φ : ℝ, Finset.univ.fold max ⊥ s = (φ : EReal) := by
  obtain ⟨k, hk⟩ := hne
  have hlt : Finset.univ.fold max ⊥ s < ⊤ :=
    (Finset.fold_max_lt _).2 ⟨bot_lt_top, fun x _ => lt_top_iff_ne_top.2 (hs x)⟩
  have hle : s k ≤ Finset.univ.fold max ⊥ s :=
    (Finset.le_fold_max _).2 (Or.inr ⟨k, Finset.mem_univ k, le_rfl⟩)
  have hbot : Finset.univ.fold max ⊥ s ≠ ⊥ := fun h => hk (le_bot_iff.1 (h ▸ hle))
  exact ⟨_, (EReal.coe_toReal hlt.ne hbot).symm⟩

private theorem exp_sub_coe {s : EReal} (hs : s ≠ ⊤) (M : ℝ) :
    Ideal.exp (s - (M : EReal)) = ((wt s * Real.exp (-M) : ℝ) : EReal) := by
  induction s using EReal.rec with
  | bot => rw [EReal.bot_sub, Ideal.exp_bot, wt_bot, zero_mul, EReal.coe_zero]
  | coe σ => rw [← EReal.coe_sub, Ideal.exp_coe, wt_coe, ← Real.exp_add, sub_eq_add_neg]
  | top => exact absurd rfl hs

private theorem max_coe_coe (x y : ℝ) : ∃ z : ℝ, max (x : EReal) (y : EReal) = (z : EReal) := by
  rcases le_total x y with h | h
  · exact ⟨y, max_eq_right (EReal.coe_le_coe_iff.2 h)⟩
  · exact ⟨x, max_eq_left (EReal.coe_le_coe_iff.2 h)⟩

def Inv (m l a : EReal) (W A : ℝ) : Prop :=
  (m = ⊥ ∧ l = 0 ∧ a = 0 ∧ W = 0 ∧ A = 0) ∨
    ∃ μ : ℝ, m = (μ : EReal) ∧ l = ((Real.exp (-μ) * W : ℝ) : EReal) ∧ a = ((Real.exp (-μ) * A : ℝ) : EReal)

theorem inv_init : Inv ⊥ 0 0 0 0 :=
  Or.inl ⟨rfl, rfl, rfl, rfl, rfl⟩

private theorem tile_sums {ι : Type*} [Fintype ι] (s : ι → EReal) (v : ι → ℝ) (hs : ∀ k, s k ≠ ⊤) (M : ℝ) :
    (∑ k, Ideal.exp (s k - (M : EReal)) = ((Real.exp (-M) * ∑ k, wt (s k) : ℝ) : EReal)) ∧
    (∑ k, Ideal.exp (s k - (M : EReal)) * ((v k : ℝ) : EReal)
      = ((Real.exp (-M) * ∑ k, wt (s k) * v k : ℝ) : EReal)) := by
  constructor
  · rw [Finset.mul_sum, coe_sum]
    refine Finset.sum_congr rfl fun k _ => ?_
    rw [exp_sub_coe (hs k), mul_comm]
  · rw [Finset.mul_sum, coe_sum]
    refine Finset.sum_congr rfl fun k _ => ?_
    rw [exp_sub_coe (hs k), ← EReal.coe_mul]
    congr 1
    ring

theorem inv_step {ι : Type*} [Fintype ι] (s : ι → EReal) (v : ι → ℝ) (hs : ∀ k, s k ≠ ⊤) (hne : ∃ k, s k ≠ ⊥)
    {m l a : EReal} {W A : ℝ} (h : Inv m l a W A) :
    Inv (max m (Finset.univ.fold max ⊥ s))
      (Ideal.exp (m - max m (Finset.univ.fold max ⊥ s)) * l + ∑ k, Ideal.exp (s k - max m (Finset.univ.fold max ⊥ s)))
      (Ideal.exp (m - max m (Finset.univ.fold max ⊥ s)) * a
        + ∑ k, Ideal.exp (s k - max m (Finset.univ.fold max ⊥ s)) * ((v k : ℝ) : EReal))
      (W + ∑ k, wt (s k)) (A + ∑ k, wt (s k) * v k) := by
  obtain ⟨φ, hφ⟩ := fold_real s hs hne
  rw [hφ]
  rcases h with ⟨rfl, rfl, rfl, rfl, rfl⟩ | ⟨μ, rfl, rfl, rfl⟩
  ·
    rw [max_bot_left]
    obtain ⟨h1, h2⟩ := tile_sums s v hs φ
    refine Or.inr ⟨φ, rfl, ?_, ?_⟩
    · rw [h1, mul_zero, zero_add, zero_add]
    · rw [h2, mul_zero, zero_add, zero_add]
  ·
    obtain ⟨μ', hμ'⟩ := max_coe_coe μ φ
    rw [hμ']
    obtain ⟨h1, h2⟩ := tile_sums s v hs μ'
    have hcancel : Real.exp μ * Real.exp (-μ) = 1 := by
      rw [← Real.exp_add, add_neg_cancel, Real.exp_zero]
    refine Or.inr ⟨μ', rfl, ?_, ?_⟩
    · rw [h1, exp_sub_coe (EReal.coe_ne_top μ), wt_coe, ← EReal.coe_mul, ← EReal.coe_add]
      congr 1
      linear_combination (Real.exp (-μ') * W) * hcancel
    · rw [h2, exp_sub_coe (EReal.coe_ne_top μ), wt_coe, ← EReal.coe_mul, ← EReal.coe_add]
      congr 1
      linear_combination (Real.exp (-μ') * A) * hcancel

end Cert.OnlineSoftmax

end
-- ==== Proof.Lse.lean ====
import proofs.«422824_j5205500363383_3_alg».proof.Proof.Fold
import proofs.«422824_j5205500363383_3_alg».proof.Proof.LibOnlineSoftmax
import Mathlib.Algebra.BigOperators.Fin
import Mathlib.Data.Fintype.BigOperators
import Mathlib.Logic.Equiv.Fin.Basic
import Mathlib.Analysis.SpecialFunctions.Log.Basic

noncomputable section

open scoped BigOperators

namespace Cert.Lse

open Cert.Fold Idealize.ShloMosaic Cert.OnlineSoftmax

theorem max_real (x y : ℝ) : ∃ z : ℝ, max (x : EReal) (y : EReal) = (z : EReal) := by
  rcases le_total x y with h | h
  · exact ⟨y, max_eq_right (EReal.coe_le_coe_iff.2 h)⟩
  · exact ⟨x, max_eq_left (EReal.coe_le_coe_iff.2 h)⟩

theorem fold_max_real {ι : Type*} [Fintype ι] [Nonempty ι] (s : ι → ℝ) :
    ∃ M : ℝ, Finset.univ.fold max ⊥ (fun j => ((s j : ℝ) : EReal)) = (M : EReal) := by
  have hlt : Finset.univ.fold max ⊥ (fun j => ((s j : ℝ) : EReal)) < ⊤ :=
    (Finset.fold_max_lt _).2 ⟨bot_lt_top, fun x _ => EReal.coe_lt_top (s x)⟩
  have hle : ((s (Classical.arbitrary ι) : ℝ) : EReal) ≤ Finset.univ.fold max ⊥ (fun j => ((s j : ℝ) : EReal)) :=
    (Finset.le_fold_max _).2 (Or.inr ⟨_, Finset.mem_univ _, le_rfl⟩)
  have hbot : Finset.univ.fold max ⊥ (fun j => ((s j : ℝ) : EReal)) ≠ ⊥ :=
    fun h => EReal.coe_ne_bot _ (le_bot_iff.1 (h ▸ hle))
  exact ⟨_, (EReal.coe_toReal hlt.ne hbot).symm⟩

theorem log_exp_neg_mul (M W : ℝ) (hW : 0 < W) : Real.log (Real.exp (-M) * W) = -M + Real.log W := by
  rw [Real.log_mul (Real.exp_pos _).ne' hW.ne', Real.log_exp]

def totW {κ : Type} [Fintype κ] (σ : ℕ → κ → ℝ) (c : ℕ) : ℝ :=
  ∑ c' ∈ Finset.range (c + 1), ∑ k, Real.exp (σ c' k)

def totT {κ : Type} [Fintype κ] (σ : ℕ → κ → ℝ) (hit : ℕ → κ → Bool) (c : ℕ) : ℝ :=
  ∑ c' ∈ Finset.range (c + 1), ∑ k, (if hit c' k then σ c' k else 0)

theorem totW_pos {κ : Type} [Fintype κ] [Nonempty κ] (σ : ℕ → κ → ℝ) (c : ℕ) : 0 < totW σ c :=
  Finset.sum_pos (fun _ _ => Finset.sum_pos (fun _ _ => Real.exp_pos _) Finset.univ_nonempty)
    Finset.nonempty_range_add_one

theorem sweep_inv {κ : Type} [Fintype κ] [Nonempty κ] (σ : ℕ → κ → ℝ) (hit : ℕ → κ → Bool) (c : ℕ) :
    ∃ (a : EReal) (A : ℝ), Inv (sweep (fun c k => ((σ c k : ℝ) : EReal)) hit c).1
      (sweep (fun c k => ((σ c k : ℝ) : EReal)) hit c).2.1 a (totW σ c) A := by
  induction c with
  | zero =>
    have h := inv_step (fun k => ((σ 0 k : ℝ) : EReal)) (fun _ => (0 : ℝ)) (fun k => EReal.coe_ne_top _)
      ⟨Classical.arbitrary κ, EReal.coe_ne_bot _⟩ inv_init
    have hW : totW σ 0 = 0 + ∑ k, wt ((σ 0 k : ℝ) : EReal) := by
      simp only [totW, wt_coe, zero_add, Finset.sum_range_one]
    rw [hW, sweep_zero]
    exact ⟨_, _, h⟩
  | succ c ih =>
    obtain ⟨a, A, h⟩ := ih
    have h' := inv_step (fun k => ((σ (c + 1) k : ℝ) : EReal)) (fun _ => (0 : ℝ)) (fun k => EReal.coe_ne_top _)
      ⟨Classical.arbitrary κ, EReal.coe_ne_bot _⟩ h
    have hW : totW σ (c + 1) = totW σ c + ∑ k, wt ((σ (c + 1) k : ℝ) : EReal) := by
      simp only [totW, wt_coe]
      rw [Finset.sum_range_succ]
    rw [hW, sweep_succ]
    exact ⟨_, _, h'⟩

theorem sweep_marked {κ : Type} [Fintype κ] (σ : ℕ → κ → ℝ) (hit : ℕ → κ → Bool) (c : ℕ) :
    (sweep (fun c k => ((σ c k : ℝ) : EReal)) hit c).2.2 = ((totT σ hit c : ℝ) : EReal) := by
  have tile : ∀ c', (∑ k, (if hit c' k then ((σ c' k : ℝ) : EReal) else 0))
      = ((∑ k, (if hit c' k then σ c' k else 0) : ℝ) : EReal) := by
    intro c'
    rw [coe_sum]
    refine Finset.sum_congr rfl fun k _ => ?_
    cases hit c' k <;> simp
  induction c with
  | zero =>
    rw [sweep_zero]
    show (0 : EReal) + (∑ k, (if hit 0 k then ((σ 0 k : ℝ) : EReal) else 0)) = _
    rw [tile 0, zero_add, totT, Finset.sum_range_one]
  | succ c ih =>
    rw [sweep_succ]
    show (sweep (fun c k => ((σ c k : ℝ) : EReal)) hit c).2.2
      + (∑ k, (if hit (c + 1) k then ((σ (c + 1) k : ℝ) : EReal) else 0)) = _
    rw [ih, tile (c + 1), ← EReal.coe_add, totT, totT, Finset.sum_range_succ _ (c + 1)]

theorem sweep_eq {κ : Type} [Fintype κ] [Nonempty κ] (σ : ℕ → κ → ℝ) (hit : ℕ → κ → Bool) (c : ℕ) :
    ∃ μ : ℝ, sweep (fun c k => ((σ c k : ℝ) : EReal)) hit c
      = ((μ : EReal), ((Real.exp (-μ) * totW σ c : ℝ) : EReal), ((totT σ hit c : ℝ) : EReal)) := by
  obtain ⟨a, A, h⟩ := sweep_inv σ hit c
  rcases h with ⟨_, _, _, hW, _⟩ | ⟨μ, hm, hl, _⟩
  · exact absurd hW (totW_pos σ c).ne'
  · exact ⟨μ, Prod.ext hm (Prod.ext hl (sweep_marked σ hit c))⟩

theorem joinNll_real (μ₀ μ₁ W₀ W₁ T₀ T₁ : ℝ) (h₀ : 0 < W₀) (h₁ : 0 < W₁) :
    joinNll ((μ₀ : EReal), ((Real.exp (-μ₀) * W₀ : ℝ) : EReal), (T₀ : EReal))
        ((μ₁ : EReal), ((Real.exp (-μ₁) * W₁ : ℝ) : EReal), (T₁ : EReal))
      = ((Real.log (W₀ + W₁) - (T₀ + T₁) : ℝ) : EReal) := by
  obtain ⟨M, hM⟩ := max_real μ₀ μ₁
  have key : Real.exp (-μ₀) * W₀ * Real.exp (μ₀ - M) + Real.exp (-μ₁) * W₁ * Real.exp (μ₁ - M)
      = Real.exp (-M) * (W₀ + W₁) := by
    have e₀ : Real.exp (-μ₀) * Real.exp (μ₀ - M) = Real.exp (-M) := by
      rw [← Real.exp_add]; congr 1; ring
    have e₁ : Real.exp (-μ₁) * Real.exp (μ₁ - M) = Real.exp (-M) := by
      rw [← Real.exp_add]; congr 1; ring
    linear_combination W₀ * e₀ + W₁ * e₁
  have hpos : ¬ (Real.exp (-M) * (W₀ + W₁) ≤ 0) :=
    not_le.2 (mul_pos (Real.exp_pos _) (add_pos h₀ h₁))
  show (max (μ₀ : EReal) (μ₁ : EReal)
      + Ideal.log (((Real.exp (-μ₀) * W₀ : ℝ) : EReal) * Ideal.exp ((μ₀ : EReal) - max (μ₀ : EReal) (μ₁ : EReal))
          + ((Real.exp (-μ₁) * W₁ : ℝ) : EReal) * Ideal.exp ((μ₁ : EReal) - max (μ₀ : EReal) (μ₁ : EReal))))
      - ((T₀ : EReal) + (T₁ : EReal)) = _
  rw [hM, ← EReal.coe_sub, ← EReal.coe_sub, Ideal.exp_coe, Ideal.exp_coe, ← EReal.coe_mul, ← EReal.coe_mul,
    ← EReal.coe_add, key, Ideal.log_coe, if_neg hpos, log_exp_neg_mul M _ (add_pos h₀ h₁), ← EReal.coe_add,
    ← EReal.coe_add, ← EReal.coe_sub]
  congr 1
  ring

theorem plain_real {ι : Type*} [Fintype ι] [Nonempty ι] (s : ι → ℝ) (j₀ : ι) :
    -((((s j₀ : ℝ) : EReal) - max ⊥ (Finset.univ.fold max ⊥ fun j => ((s j : ℝ) : EReal)))
        - Ideal.log (0 + ∑ j, Ideal.exp (((s j : ℝ) : EReal)
            - max ⊥ (Finset.univ.fold max ⊥ fun j => ((s j : ℝ) : EReal)))))
      = ((Real.log (∑ j, Real.exp (s j)) - s j₀ : ℝ) : EReal) := by
  obtain ⟨M, hM⟩ := fold_max_real s
  have hW : 0 < ∑ j, Real.exp (s j) := Finset.sum_pos (fun _ _ => Real.exp_pos _) Finset.univ_nonempty
  have hsum : (∑ j, Ideal.exp (((s j : ℝ) : EReal) - (M : EReal)))
      = ((Real.exp (-M) * ∑ j, Real.exp (s j) : ℝ) : EReal) := by
    rw [Finset.mul_sum, coe_sum]
    refine Finset.sum_congr rfl fun j _ => ?_
    rw [← EReal.coe_sub, Ideal.exp_coe, ← Real.exp_add]
    congr 2
    ring
  have hpos : ¬ (Real.exp (-M) * ∑ j, Real.exp (s j) ≤ 0) := not_le.2 (mul_pos (Real.exp_pos _) hW)
  rw [hM, max_bot_left, zero_add, hsum, Ideal.log_coe, if_neg hpos, log_exp_neg_mul M _ hW, ← EReal.coe_sub,
    ← EReal.coe_sub, ← EReal.coe_neg]
  congr 1
  ring

theorem sum_fin_mul (m n : ℕ) (f : ℕ → ℝ) :
    ∑ j : Fin (m * n), f j.val = ∑ i : Fin m, ∑ k : Fin n, f (i.val * n + k.val) := by
  rw [← Equiv.sum_comp (finProdFinEquiv (m := m) (n := n)) (fun j => f j.val), Fintype.sum_prod_type]
  refine Finset.sum_congr rfl fun i _ => Finset.sum_congr rfl fun k _ => ?_
  show f (k.val + n * i.val) = _
  rw [add_comm, mul_comm]

theorem sum_split (f : ℕ → ℝ) :
    ∑ j : Fin 100000, f j.val
      = (∑ c ∈ Finset.range (49 + 1), ∑ k : Fin 1000, f (0 * 50000 + c * 1000 + k.val))
        + (∑ c ∈ Finset.range (49 + 1), ∑ k : Fin 1000, f (1 * 50000 + c * 1000 + k.val)) := by
  have h1 : ∑ j : Fin 100000, f j.val = ∑ i : Fin 2, ∑ r : Fin 50000, f (i.val * 50000 + r.val) :=
    sum_fin_mul 2 50000 f
  have h2 : ∀ i : ℕ, ∑ r : Fin 50000, f (i * 50000 + r.val)
      = ∑ c ∈ Finset.range (49 + 1), ∑ k : Fin 1000, f (i * 50000 + c * 1000 + k.val) := by
    intro i
    have h := sum_fin_mul 50 1000 (fun r => f (i * 50000 + r))
    have h' := Fin.sum_univ_eq_sum_range (fun c => ∑ k : Fin 1000, f (i * 50000 + (c * 1000 + k.val))) 50
    simp only [add_assoc]
    exact h.trans h'
  rw [h1, Fin.sum_univ_two, h2, h2]
  rfl

theorem marked_total (S : ℕ → ℝ) (j₀ : Fin 100000) (hit : Fin 2 → ℕ → Fin 1000 → Bool)
    (hhit : ∀ (i : Fin 2) (c : ℕ) (k : Fin 1000), c < 50 →
      (hit i c k = true ↔ i.val * 50000 + c * 1000 + k.val = j₀.val)) :
    totT (fun c (k : Fin 1000) => S (0 * 50000 + c * 1000 + k.val)) (hit 0) 49
      + totT (fun c (k : Fin 1000) => S (1 * 50000 + c * 1000 + k.val)) (hit 1) 49 = S j₀.val := by
  have hterm : ∀ (i : Fin 2) (c : ℕ), c ∈ Finset.range (49 + 1) → ∀ k : Fin 1000,
      (if hit i c k then S (i.val * 50000 + c * 1000 + k.val) else 0)
        = (fun n => if n = j₀.val then S n else 0) (i.val * 50000 + c * 1000 + k.val) := by
    intro i c hc k
    have hc' : c < 50 := Finset.mem_range.1 hc
    by_cases h : hit i c k = true
    · rw [if_pos h]
      exact (if_pos ((hhit i c k hc').1 h)).symm
    · rw [if_neg h]
      exact (if_neg (fun h' => h ((hhit i c k hc').2 h'))).symm
  have e0 : totT (fun c (k : Fin 1000) => S (0 * 50000 + c * 1000 + k.val)) (hit 0) 49
      = ∑ c ∈ Finset.range (49 + 1), ∑ k : Fin 1000,
          (fun n => if n = j₀.val then S n else 0) (0 * 50000 + c * 1000 + k.val) :=
    Finset.sum_congr rfl fun c hc => Finset.sum_congr rfl fun k _ => hterm 0 c hc k
  have e1 : totT (fun c (k : Fin 1000) => S (1 * 50000 + c * 1000 + k.val)) (hit 1) 49
      = ∑ c ∈ Finset.range (49 + 1), ∑ k : Fin 1000,
          (fun n => if n = j₀.val then S n else 0) (1 * 50000 + c * 1000 + k.val) :=
    Finset.sum_congr rfl fun c hc => Finset.sum_congr rfl fun k _ => hterm 1 c hc k
  rw [e0, e1, ← sum_split (fun n => if n = j₀.val then S n else 0),
    Finset.sum_eq_single j₀ (fun b _ hb => if_neg (fun h => hb (Fin.ext h)))
      (fun h => absurd (Finset.mem_univ _) h)]
  exact if_pos rfl

theorem nll_eq (S : ℕ → ℝ) (j₀ : Fin 100000) (hit : Fin 2 → ℕ → Fin 1000 → Bool)
    (hhit : ∀ (i : Fin 2) (c : ℕ) (k : Fin 1000), c < 50 → (hit i c k = true ↔ i.val * 50000 + c * 1000 + k.val = j₀.val)) :
    joinNll (sweep (fun c (k : Fin 1000) => ((S (0 * 50000 + c * 1000 + k.val) : ℝ) : EReal)) (hit 0) 49)
            (sweep (fun c (k : Fin 1000) => ((S (1 * 50000 + c * 1000 + k.val) : ℝ) : EReal)) (hit 1) 49)
      = -((((S j₀.val : ℝ) : EReal) - max ⊥ (Finset.univ.fold max ⊥ fun j : Fin 100000 => ((S j.val : ℝ) : EReal)))
          - Ideal.log (0 + ∑ j : Fin 100000, Ideal.exp (((S j.val : ℝ) : EReal) - max ⊥ (Finset.univ.fold max ⊥ fun j : Fin 100000 => ((S j.val : ℝ) : EReal))))) := by
  haveI : Nonempty (Fin 100000) := ⟨j₀⟩
  obtain ⟨μ₀, h₀⟩ := sweep_eq (fun c (k : Fin 1000) => S (0 * 50000 + c * 1000 + k.val)) (hit 0) 49
  obtain ⟨μ₁, h₁⟩ := sweep_eq (fun c (k : Fin 1000) => S (1 * 50000 + c * 1000 + k.val)) (hit 1) 49
  rw [h₀, h₁, joinNll_real _ _ _ _ _ _ (totW_pos _ _) (totW_pos _ _),
    plain_real (fun j : Fin 100000 => S j.val) j₀, marked_total S j₀ hit hhit,
    sum_split (fun n => Real.exp (S n))]
  rfl

end Cert.Lse

end
-- ==== Proof.ScoreMath.lean ====
import Idealize.ShloMosaic.PureOps.Ideal
import Idealize.ShloMosaic.PureOps.Ideal.Laws
import Mathlib.Analysis.Real.Sqrt
import Mathlib.Data.EReal.Operations

noncomputable section

open scoped BigOperators

namespace Cert.ScoreMath

open Idealize.ShloMosaic

theorem eps_val : Ideal.ofBits .f32 0x2B8CBCCC#32 = (((2305843 : ℝ) / 2 ^ 61 : ℝ) : EReal) := by
  simp [Ideal.ofBits, Ideal.ieee, -EReal.coe_mul]; norm_num

theorem c64_val : Ideal.ofBits .f32 0x42800000#32 = ((64 : ℝ) : EReal) := by
  simp [Ideal.ofBits, Ideal.ieee, -EReal.coe_mul]; norm_num

theorem margin_val : Ideal.ofBits .f32 0xBEB33333#32 = ((-(11744051 : ℝ) / 2 ^ 25 : ℝ) : EReal) := by
  simp [Ideal.ofBits, Ideal.ieee, -EReal.coe_mul]; norm_num

theorem margin64_val : Ideal.ofBits .f32 0x41B33333#32 = (((11744051 : ℝ) / 2 ^ 19 : ℝ) : EReal) := by
  simp [Ideal.ofBits, Ideal.ieee, -EReal.coe_mul]; norm_num

theorem epsSq_eq : ((5316911940649 / 5316911983139663491615228241121378304 : ℝ) : EReal)
    = ((((2305843 : ℝ) / 2 ^ 61) ^ 2 : ℝ) : EReal) := by
  norm_num

theorem coe_sum {ι : Type*} (t : Finset ι) (f : ι → ℝ) :
    ((∑ k ∈ t, f k : ℝ) : EReal) = ∑ k ∈ t, ((f k : ℝ) : EReal) := by
  classical
  induction t using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

theorem sumsq_coe (w : Fin 512 → ℝ) :
    (∑ k, ((w k : ℝ) : EReal) * ((w k : ℝ) : EReal)) = ((∑ k, w k * w k : ℝ) : EReal) := by
  rw [coe_sum]; exact Finset.sum_congr rfl (fun k _ => (EReal.coe_mul _ _).symm)

theorem sumsq_nonneg (w : Fin 512 → ℝ) : 0 ≤ ∑ k, w k * w k :=
  Finset.sum_nonneg (fun k _ => mul_self_nonneg (w k))

theorem eps_pos : (0 : ℝ) < (2305843 : ℝ) / 2 ^ 61 := by positivity

theorem len_pos (w : Fin 512 → ℝ) : 0 < max (Real.sqrt (∑ k, w k * w k)) ((2305843 : ℝ) / 2 ^ 61) :=
  lt_max_of_lt_right eps_pos

theorem sqrt_max_sq (a e : ℝ) (he : 0 ≤ e) : Real.sqrt (max a (e ^ 2)) = max (Real.sqrt a) e := by
  rw [Real.sqrt_monotone.map_max, Real.sqrt_sq he]

theorem inv_norm_eq (w : Fin 512 → ℝ) :
    Ideal.rsqrt (max (∑ k, ((w k : ℝ) : EReal) * ((w k : ℝ) : EReal)) ((((2305843 : ℝ) / 2 ^ 61) ^ 2 : ℝ) : EReal))
      = ((1 / max (Real.sqrt (∑ k, w k * w k)) ((2305843 : ℝ) / 2 ^ 61) : ℝ) : EReal) := by
  have hpos : 0 < max (∑ k, w k * w k) (((2305843 : ℝ) / 2 ^ 61) ^ 2) :=
    lt_max_of_lt_right (pow_pos eps_pos 2)
  rw [sumsq_coe, ← coe_max, Ideal.rsqrt_coe, if_neg (not_lt.mpr hpos.le), if_neg hpos.ne',
    sqrt_max_sq _ _ eps_pos.le, one_div]

theorem norm_div_eq (w : Fin 512 → ℝ) (d : Fin 512) :
    Ideal.div ((w d : ℝ) : EReal) (max (Ideal.sqrt (0 + ∑ k, ((w k : ℝ) : EReal) * ((w k : ℝ) : EReal))) ((((2305843 : ℝ) / 2 ^ 61 : ℝ)) : EReal))
      = ((w d / max (Real.sqrt (∑ k, w k * w k)) ((2305843 : ℝ) / 2 ^ 61) : ℝ) : EReal) := by
  rw [zero_add, sumsq_coe, Ideal.sqrt_coe, if_neg (not_lt.mpr (sumsq_nonneg w)), ← coe_max,
    Ideal.div_coe (len_pos w).ne', ← EReal.coe_mul, mul_one_div]

theorem score_eq (xn w : Fin 512 → ℝ) (hitb : Bool) :
    (if hitb then (∑ d, ((xn d : ℝ) : EReal) * (((w d : ℝ) : EReal) * (((1 / max (Real.sqrt (∑ k, w k * w k)) ((2305843 : ℝ) / 2 ^ 61) : ℝ) : EReal) * ((64 : ℝ) : EReal)))) - (((11744051 : ℝ) / 2 ^ 19 : ℝ) : EReal)
       else (∑ d, ((xn d : ℝ) : EReal) * (((w d : ℝ) : EReal) * (((1 / max (Real.sqrt (∑ k, w k * w k)) ((2305843 : ℝ) / 2 ^ 61) : ℝ) : EReal) * ((64 : ℝ) : EReal)))))
    = (((∑ d, xn d * (w d / max (Real.sqrt (∑ k, w k * w k)) ((2305843 : ℝ) / 2 ^ 61)) + (if hitb then -(11744051 : ℝ) / 2 ^ 25 else 0)) * 64 : ℝ) : EReal) := by
  have hsum : (∑ d, ((xn d : ℝ) : EReal) * (((w d : ℝ) : EReal) * (((1 / max (Real.sqrt (∑ k, w k * w k)) ((2305843 : ℝ) / 2 ^ 61) : ℝ) : EReal) * ((64 : ℝ) : EReal))))
      = (((∑ d, xn d * (w d / max (Real.sqrt (∑ k, w k * w k)) ((2305843 : ℝ) / 2 ^ 61))) * 64 : ℝ) : EReal) := by
    rw [Finset.sum_mul, coe_sum]
    refine Finset.sum_congr rfl (fun d _ => ?_)
    rw [← EReal.coe_mul, ← EReal.coe_mul, ← EReal.coe_mul]
    congr 1
    ring
  cases hitb
  · rw [if_neg Bool.false_ne_true, if_neg Bool.false_ne_true, hsum, add_zero]
  · rw [if_pos rfl, if_pos rfl, hsum, ← EReal.coe_sub]
    congr 1
    ring

end Cert.ScoreMath

end
-- ==== Proof.KIScoreRead.lean ====
import proofs.«422824_j5205500363383_3_alg».proof.Proof.Gen.KernelIdeal.Skeleton
import proofs.«422824_j5205500363383_3_alg».proof.Proof.LibRowOps
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

open scoped BigOperators

namespace Cert.KernelIdeal.ScoreRead

open Cert.KernelIdeal Cert.KernelIdeal.Gen Idealize.ShloMosaic Idealize.ShloMosaic.ValueIdx

theorem epsSq_named : Named.named (F := Ideal) Cert.KernelIdeal.κ "eps_ref_sq" (φ := .f32) 0x179ABE15#32
    = ((5316911940649 / 5316911983139663491615228241121378304 : ℝ) : EReal) :=
  IdealRules.named_const.ideal_named_scalar _ _ _ _ rfl

theorem iota_lane_apply (r : Fin 1024) (k : Fin 1000) :
    iota .tc S1024x1000 32 [1] iota_S1024x1000_d1_w32 (ix2 r k) = BitVec.ofNat 32 k.val :=
  iota_single_apply .tc S1024x1000 32 1 iota_S1024x1000_d1_w32 (ix2 r k)

theorem hit_iff (i : grid0.Coords) (tg : Vec Ideal S1024x1 .i32) (r : Fin 1024) (k : Fin 1000) :
    k0_pay10 (F := Ideal) i tg (ix2 r k) = 1#1 ↔
      BitVec.ofNat 32 k.val
        = tg (ix2 r 0) - (BitVec.ofNat 32 (i 0).val * 50000#32 + BitVec.ofNat 32 (i 1).val * 1000#32) := by
  unfold k0_pay10
  show IntOp.cmpi .eq (iota .tc S1024x1000 32 [1] iota_S1024x1000_d1_w32 (ix2 r k))
      (broadcastTo S1024x1000 _ broadcasts_S1024x1_S1024x1000 (ix2 r k)) = 1#1 ↔ _
  rw [IntOp.cmpi_eq, iota_lane_apply, Cert.RowOps.broadcastTo_a1_ab_apply, shapeCast_self]
  rfl

theorem scaled_apply (w : FVec Ideal S1000x512 .f32) (k : Fin 1000) (d : Fin 512) :
    mulf w (broadcastTo S1000x512
        (mulf (rsqrt (maximumf
            (shapeCast S1000x1
              (multiReduction (F := Ideal) .add [1] S1000 (mulf w w) 0x00000000#32 reduces_S1000x512_S1000 (.inl rfl) rfl)
              shapeCasts_S1000_S1000x1)
            (broadcast S1000x1 (Named.named (F := Ideal) κ "eps_ref_sq" (φ := .f32) 0x179ABE15#32))))
          (broadcast S1000x1 (Scalar.ofBits (F := Ideal) .f32 0x42800000#32)))
        broadcasts_S1000x1_S1000x512) (ix2 k d)
      = w (ix2 k d) * (Ideal.rsqrt (max (∑ e : Fin 512, w (ix2 k e) * w (ix2 k e))
          ((5316911940649 / 5316911983139663491615228241121378304 : ℝ) : EReal)) * Ideal.ofBits .f32 0x42800000#32) := by
  refine (mulf_apply _ _ _).trans (congrArg (w (ix2 k d) * ·) ?_)
  refine (Cert.RowOps.broadcastTo_a1_ab_apply _ _ k d).trans ?_
  show Ideal.rsqrt (max (shapeCast S1000x1 _ shapeCasts_S1000_S1000x1 (ix2 k (0 : Fin 1)))
      (Named.named (F := Ideal) κ "eps_ref_sq" (φ := .f32) 0x179ABE15#32)) * Ideal.ofBits .f32 0x42800000#32 = _
  rw [Cert.RowOps.shapeCast_a_a1_apply, epsSq_named]
  refine congrArg (fun s => Ideal.rsqrt (max s _) * _) ?_
  exact Cert.RowOps.laneSum_apply (mulf w w) reduces_S1000x512_S1000 (.inl rfl) rfl k

theorem lhs_axis0 (j : S1024x1000.Idx) (q : dot_S1024x512_S1000x512_S1024x1000_1_1_0_0_n_n.contr.Idx) :
    (dot_S1024x512_S1000x512_S1024x1000_1_1_0_0_n_n.lhsIdx j q 0).val = (j 0).val := by
  unfold DotDims.lhsIdx
  rw [dif_neg (show ¬(0 : Fin S1024x512.rank) ∈ dot_S1024x512_S1000x512_S1024x1000_1_1_0_0_n_n.lhsBatch by decide),
    dif_pos (show (0 : Fin S1024x512.rank) ∈ dot_S1024x512_S1000x512_S1024x1000_1_1_0_0_n_n.lhsNonContracting by decide)]
  rfl

theorem lhs_axis1 (j : S1024x1000.Idx) (q : dot_S1024x512_S1000x512_S1024x1000_1_1_0_0_n_n.contr.Idx) :
    (dot_S1024x512_S1000x512_S1024x1000_1_1_0_0_n_n.lhsIdx j q 1).val = (q ⟨0, by decide⟩).val :=
  dot_S1024x512_S1000x512_S1024x1000_1_1_0_0_n_n.lhsIdx_val_of_single rfl j q

theorem rhs_axis0 (j : S1024x1000.Idx) (q : dot_S1024x512_S1000x512_S1024x1000_1_1_0_0_n_n.contr.Idx) :
    (dot_S1024x512_S1000x512_S1024x1000_1_1_0_0_n_n.rhsIdx j q 0).val = (j 1).val := by
  unfold DotDims.rhsIdx
  rw [dif_neg (show ¬(0 : Fin S1000x512.rank) ∈ dot_S1024x512_S1000x512_S1024x1000_1_1_0_0_n_n.rhsBatch by decide),
    dif_pos (show (0 : Fin S1000x512.rank) ∈ dot_S1024x512_S1000x512_S1024x1000_1_1_0_0_n_n.rhsNonContracting by decide)]
  rfl

theorem rhs_axis1 (j : S1024x1000.Idx) (q : dot_S1024x512_S1000x512_S1024x1000_1_1_0_0_n_n.contr.Idx) :
    (dot_S1024x512_S1000x512_S1024x1000_1_1_0_0_n_n.rhsIdx j q 1).val = (q ⟨0, by decide⟩).val :=
  dot_S1024x512_S1000x512_S1024x1000_1_1_0_0_n_n.rhsIdx_val_of_single rfl j q

theorem matmul_nt_apply (A : FVec Ideal S1024x512 .bf16) (B : FVec Ideal S1000x512 .bf16) (r : Fin 1024) (k : Fin 1000) :
    matmul dot_S1024x512_S1000x512_S1024x1000_1_1_0_0_n_n none A B (constant (F := Ideal) S1024x1000 .f32 0x00000000#32) (ix2 r k)
      = ∑ d : Fin 512, A (ix2 r d) * B (ix2 k d) := by
  show FloatOps.matmul dot_S1024x512_S1000x512_S1024x1000_1_1_0_0_n_n none A B _ (ix2 r k) = _
  rw [Ideal.matmul_constant_zero_apply,
    ← Equiv.sum_comp (contrEquiv1 dot_S1024x512_S1000x512_S1024x1000_1_1_0_0_n_n 512 rfl rfl).symm]
  refine Finset.sum_congr rfl fun d _ => ?_
  have hd := contrEquiv1_symm_val dot_S1024x512_S1000x512_S1024x1000_1_1_0_0_n_n 512 rfl rfl d
  have el : dot_S1024x512_S1000x512_S1024x1000_1_1_0_0_n_n.lhsIdx (ix2 r k)
      ((contrEquiv1 dot_S1024x512_S1000x512_S1024x1000_1_1_0_0_n_n 512 rfl rfl).symm d) = ix2 r d :=
    funext fun a => Fin.ext (by
      match a with
      | ⟨0, _⟩ => exact lhs_axis0 _ _
      | ⟨1, _⟩ => exact (lhs_axis1 _ _).trans hd)
  have er : dot_S1024x512_S1000x512_S1024x1000_1_1_0_0_n_n.rhsIdx (ix2 r k)
      ((contrEquiv1 dot_S1024x512_S1000x512_S1024x1000_1_1_0_0_n_n 512 rfl rfl).symm d) = ix2 k d :=
    funext fun a => Fin.ext (by
      match a with
      | ⟨0, _⟩ => exact rhs_axis0 _ _
      | ⟨1, _⟩ => exact (rhs_axis1 _ _).trans hd)
  rw [el, er]

theorem select_sub_apply (c : IVec S1024x1000 1) (M : FVec Ideal S1024x1000 .f32) (m : Ideal .f32) (j : S1024x1000.Idx) :
    select c (subf M (broadcast S1024x1000 m)) M j = if c j = 1#1 then M j - m else M j := rfl

theorem score_closed (i : grid0.Coords) (w : Vec Ideal S1000x512 .f32) (x : Vec Ideal S1024x512 .bf16)
    (tg : Vec Ideal S1024x1 .i32) (r : Fin 1024) (k : Fin 1000) :
    k0_pay11 (F := Ideal) i w x tg (ix2 r k)
      = (if k0_pay10 (F := Ideal) i tg (ix2 r k) = 1#1
         then (∑ d : Fin 512, x (ix2 r d) * (w (ix2 k d) * (Ideal.rsqrt (max (∑ e : Fin 512, w (ix2 k e) * w (ix2 k e)) ((5316911940649 / 5316911983139663491615228241121378304 : ℝ) : EReal)) * Ideal.ofBits .f32 0x42800000#32))) - Ideal.ofBits .f32 0x41B33333#32
         else (∑ d : Fin 512, x (ix2 r d) * (w (ix2 k d) * (Ideal.rsqrt (max (∑ e : Fin 512, w (ix2 k e) * w (ix2 k e)) ((5316911940649 / 5316911983139663491615228241121378304 : ℝ) : EReal)) * Ideal.ofBits .f32 0x42800000#32)))) := by
  unfold k0_pay11
  refine (select_sub_apply _ _ _ _).trans ?_
  refine ite_congr rfl (fun _ => congrArg (· - _) ?_) (fun _ => ?_) <;>
  · refine (matmul_nt_apply _ _ r k).trans (Finset.sum_congr rfl fun d _ => ?_)
    rw [shapeCast_self]
    exact congrArg (x (ix2 r d) * ·) (scaled_apply w k d)

end Cert.KernelIdeal.ScoreRead

end
-- ==== Proof.RefNll.lean ====
import proofs.«422824_j5205500363383_3_alg».proof.Proof.Gen.ReferenceIdeal
import Idealize.ShloMosaic.Lib.ValueIdx

noncomputable section

namespace Cert.ReferenceIdeal.RefNll

open Cert.ReferenceIdeal Cert.ReferenceIdeal.Gen Idealize.ShloMosaic Idealize.ShloMosaic.ValueIdx

variable {F : FTy → Type} [FloatOps F]

def wnFn (W : FVec F S100000x512 .f32) : FVec F S100000x512 .f32 :=
  Host.divf W
    (broadcastInDim S100000x512 ![0, 1] bcast_S100000x1_S100000x512_0_1
      (maximumf
        (Host.sqrt
          (broadcastInDim S100000x1 ![0] bcast_S100000_S100000x1_0
            (Host.reduceAdd (mulf W W) (constant (F := F) S_ .f32 0x00000000#32) reducesTo_S100000x512_S100000_d1 h_S_)))
        (broadcastInDim S100000x1 ![] bcast_S_S100000x1 (constant (F := F) S_ .f32 0x2B8CBCCC#32))))

def tgWrap (tg : IVec S1024 32) : IVec S1024 32 :=
  select (cmpi .slt tg (broadcastInDim S1024 ![] bcast_S_S1024 (constantI S_ 32 0#32)))
    (addi tg (broadcastInDim S1024 ![] bcast_S_S1024 (constantI S_ 32 100000#32))) tg

def idxCol (tg : IVec S1024 32) : IVec S1024x1 32 :=
  broadcastInDim S1024x1 ![0] bcast_S1024_S1024x1_0 (tgWrap tg)

def wbR (W : FVec F S100000x512 .f32) (tg : IVec S1024 32) : FVec F S1024x512 .f32 :=
  Host.gather gather_S100000x512_S1024x1_S1024x512_1_0_n_n_0_1_1512 (wnFn W) (idxCol tg)

def rowWrap : IVec S1024 32 :=
  select (cmpi .slt (iotaInDim S1024 32 0) (broadcastInDim S1024 ![] bcast_S_S1024 (constantI S_ 32 0#32)))
    (addi (iotaInDim S1024 32 0) (broadcastInDim S1024 ![] bcast_S_S1024 (constantI S_ 32 1024#32))) (iotaInDim S1024 32 0)

def pairsR (tg : IVec S1024 32) : IVec S1024x2 32 :=
  concatenate S1024x2 1
    [⟨S1024x1, broadcastInDim S1024x1 ![0] bcast_S1024_S1024x1_0 rowWrap⟩,
     ⟨S1024x1, broadcastInDim S1024x1 ![0] bcast_S1024_S1024x1_0 (tgWrap tg)⟩]
    concatenates_S1024x1_S1024x1_S1024x2_d1

def scoresR (xn : FVec F S1024x512 .f32) (W : FVec F S100000x512 .f32) (tg : IVec S1024 32) : FVec F S1024x100000 .f32 :=
  mulf
    (Host.scatterAdd scatter_S1024x100000_S1024x2_S1024_n_01_01_1
      (Host.dotGeneral dot_S1024x512_S512x100000_S1024x100000_1_0_0_1_n_n none xn
        (transpose S512x100000 [1, 0] (wnFn W) transposes_S100000x512_S512x100000_1_0))
      (pairsR tg)
      (broadcastInDim S1024 ![] bcast_S_S1024 (constant (F := F) S_ .f32 0xBEB33333#32)))
    (broadcastInDim S1024x100000 ![] bcast_S_S1024x100000 (constant (F := F) S_ .f32 0x42800000#32))

def shiftedR (s : FVec F S1024x100000 .f32) : FVec F S1024x100000 .f32 :=
  subf s
    (broadcastInDim S1024x100000 ![0, 1] bcast_S1024x1_S1024x100000_0_1
      (broadcastInDim S1024x1 ![0] bcast_S1024_S1024x1_0
        (maximumf
          (broadcastInDim S1024 ![] bcast_S_S1024 (constant (F := F) S_ .f32 0xFF800000#32))
          (Host.reduce FloatOps.maximumf s (constant (F := F) S_ .f32 0xFF800000#32) reducesTo_S1024x100000_S1024_d1 h_S_))))

def lsmR (s : FVec F S1024x100000 .f32) : FVec F S1024x100000 .f32 :=
  subf (shiftedR s)
    (broadcastInDim S1024x100000 ![0, 1] bcast_S1024x1_S1024x100000_0_1
      (Host.log
        (broadcastInDim S1024x1 ![0] bcast_S1024_S1024x1_0
          (Host.reduceAdd (Host.exp (shiftedR s)) (constant (F := F) S_ .f32 0x00000000#32) reducesTo_S1024x100000_S1024_d1 h_S_))))

def nllR (xn : FVec F S1024x512 .f32) (W : FVec F S100000x512 .f32) (tg : IVec S1024 32) : FVec F S1024 .f32 :=
  Host.negf
    (Host.gather gather_S1024x100000_S1024x2_S1024_n_01_n_n_01_1_11 (lsmR (scoresR xn W tg)) (pairsR tg))

end Cert.ReferenceIdeal.RefNll

end
-- ==== Proof.LibRowGather.lean ====
import Idealize.ShloMosaic.Lib.ValueIdx

noncomputable section

namespace Cert.Lib.RowGather

open Idealize.ShloMosaic Idealize.ShloMosaic.ValueIdx

variable {α : Type}

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.LibPointScatter.lean ====
import Idealize.ShloMosaic.PureOps.Ideal
import Idealize.ShloMosaic.PureOps.Contract
import Idealize.ShloMosaic.Lib.ValueIdx

noncomputable section

namespace Idealize.ShloMosaic.PointScatter

open Idealize.ShloMosaic.ValueIdx

abbrev dimsPair (P Q n : Nat) (wf : ScatterDims.WF ⟨2, ![P, Q]⟩ ⟨2, ![n, 2]⟩ ⟨1, ![n]⟩ [] [0, 1] [0, 1] 1) :
    ScatterDims ⟨2, ![P, Q]⟩ ⟨2, ![n, 2]⟩ ⟨1, ![n]⟩ where
  updateWindowDims := []
  insertedWindowDims := [0, 1]
  scatterDimsToOperandDims := [0, 1]
  indexVectorDim := 1
  wf := wf

section Pair
variable {P Q n w : Nat} (wf : ScatterDims.WF ⟨2, ![P, Q]⟩ ⟨2, ![n, 2]⟩ ⟨1, ![n]⟩ [] [0, 1] [0, 1] 1)

private theorem pair_start0 (j : (⟨1, ![n]⟩ : Shape).Idx) (idx : IVec ⟨2, ![n, 2]⟩ w) :
    (dimsPair P Q n wf).start j idx 0 = (idx (ix2 (j 0) (0 : Fin 2))).toInt := by
  unfold ScatterDims.start
  rw [dif_pos (show (0 : Fin 2) ∈ ([0, 1] : List (Fin 2)) by decide)]
  congr 2
  funext b; refine Fin.ext ?_
  match b with
  | ⟨0, _⟩ => rfl
  | ⟨1, _⟩ => rfl

private theorem pair_start1 (j : (⟨1, ![n]⟩ : Shape).Idx) (idx : IVec ⟨2, ![n, 2]⟩ w) :
    (dimsPair P Q n wf).start j idx 1 = (idx (ix2 (j 0) (1 : Fin 2))).toInt := by
  unfold ScatterDims.start
  rw [dif_pos (show (1 : Fin 2) ∈ ([0, 1] : List (Fin 2)) by decide)]
  congr 2
  funext b; refine Fin.ext ?_
  match b with
  | ⟨0, _⟩ => rfl
  | ⟨1, _⟩ => rfl

private theorem pair_window (j : (⟨1, ![n]⟩ : Shape).Idx) (a : Fin 2) :
    (dimsPair P Q n wf).window j a = 0 := by
  unfold ScatterDims.window
  have h : a ∉ (dimsPair P Q n wf).sKept := by
    show a ∉ (List.finRange 2).filter (· ∉ ([0, 1] : List (Fin 2)))
    revert a; decide
  rw [dif_neg h]

private theorem pair_resultIdx_iff (j : (⟨1, ![n]⟩ : Shape).Idx) (idx : IVec ⟨2, ![n, 2]⟩ w) (p : Fin P) (q : Fin Q) :
    (dimsPair P Q n wf).resultIdx? j idx = some (ix2 p q)
      ↔ (idx (ix2 (j 0) (0 : Fin 2))).toInt = (p.val : Int) ∧ (idx (ix2 (j 0) (1 : Fin 2))).toInt = (q.val : Int) := by
  have hs0 : (⟨2, ![P, Q]⟩ : Shape).size 0 = P := rfl
  have hs1 : (⟨2, ![P, Q]⟩ : Shape).size 1 = Q := rfl
  unfold ScatterDims.resultIdx?
  split
  · rename_i h
    rw [Option.some.injEq]
    constructor
    · intro he
      have h0 := congrArg Fin.val (congrFun he 0)
      have h1 := congrArg Fin.val (congrFun he 1)
      have g0 := h 0
      have g1 := h 1
      simp only [pair_start0, pair_start1, pair_window] at h0 h1 g0 g1
      change _ = p.val at h0
      change _ = q.val at h1
      refine ⟨?_, ?_⟩ <;> omega
    · rintro ⟨h0, h1⟩
      funext a
      refine Fin.ext ?_
      match a with
      | ⟨0, _⟩ =>
        show ((dimsPair P Q n wf).start j idx 0 + ((dimsPair P Q n wf).window j 0 : Int)).toNat = p.val
        rw [pair_start0, pair_window, h0]; omega
      | ⟨1, _⟩ =>
        show ((dimsPair P Q n wf).start j idx 1 + ((dimsPair P Q n wf).window j 1 : Int)).toNat = q.val
        rw [pair_start1, pair_window, h1]; omega
  · rename_i h
    constructor
    · intro he; exact absurd he (by simp)
    · rintro ⟨h0, h1⟩
      exfalso; apply h
      intro a
      match a with
      | ⟨0, _⟩ =>
        show 0 ≤ (dimsPair P Q n wf).start j idx 0 + ((dimsPair P Q n wf).window j 0 : Int)
          ∧ (dimsPair P Q n wf).start j idx 0 + ((dimsPair P Q n wf).window j 0 : Int) < ((⟨2, ![P, Q]⟩ : Shape).size 0 : Nat)
        have := p.isLt
        rw [pair_start0, pair_window, h0, hs0]; omega
      | ⟨1, _⟩ =>
        show 0 ≤ (dimsPair P Q n wf).start j idx 1 + ((dimsPair P Q n wf).window j 1 : Int)
          ∧ (dimsPair P Q n wf).start j idx 1 + ((dimsPair P Q n wf).window j 1 : Int) < ((⟨2, ![P, Q]⟩ : Shape).size 1 : Nat)
        have := q.isLt
        rw [pair_start1, pair_window, h1, hs1]; omega
end Pair

theorem scatterAdd_pair_apply {P Q n w : Nat} (wf : ScatterDims.WF ⟨2, ![P, Q]⟩ ⟨2, ![n, 2]⟩ ⟨1, ![n]⟩ [] [0, 1] [0, 1] 1)
    (x : (⟨2, ![P, Q]⟩ : Shape).Idx → EReal) (idx : IVec ⟨2, ![n, 2]⟩ w) (upd : (⟨1, ![n]⟩ : Shape).Idx → EReal)
    (p : Fin P) (q : Fin Q) :
    Ideal.hostScatterAdd (dimsPair P Q n wf) x idx upd (ix2 p q)
      = x (ix2 p q) + ∑ i ∈ Finset.univ.filter (fun i : Fin n =>
          (idx (ix2 i (0 : Fin 2))).toInt = (p.val : Int) ∧ (idx (ix2 i (1 : Fin 2))).toInt = (q.val : Int)), upd (ix1 i) := by
  unfold Ideal.hostScatterAdd
  congr 1
  refine Finset.sum_nbij' (fun j => (j 0 : Fin n)) (fun i => ix1 i) ?_ ?_ ?_ ?_ ?_
  · intro j hj
    have hj' := (Finset.mem_filter.mp hj).2
    exact Finset.mem_filter.mpr ⟨Finset.mem_univ _, (pair_resultIdx_iff wf j idx p q).mp hj'⟩
  · intro i hi
    have hi' := (Finset.mem_filter.mp hi).2
    exact Finset.mem_filter.mpr ⟨Finset.mem_univ _, (pair_resultIdx_iff wf (ix1 i) idx p q).mpr hi'⟩
  · intro j _
    exact (eq_ix1 j).symm
  · intro i _
    rfl
  · intro j _
    exact congrArg upd (eq_ix1 j)

theorem scatterAdd_pair_host {P Q n w : Nat} {φ : FTy}
    (wf : ScatterDims.WF ⟨2, ![P, Q]⟩ ⟨2, ![n, 2]⟩ ⟨1, ![n]⟩ [] [0, 1] [0, 1] 1)
    (x : FVec Ideal ⟨2, ![P, Q]⟩ φ) (idx : IVec ⟨2, ![n, 2]⟩ w) (upd : FVec Ideal ⟨1, ![n]⟩ φ) (p : Fin P) (q : Fin Q) :
    Host.scatterAdd (dimsPair P Q n wf) x idx upd (ix2 p q)
      = x (ix2 p q) + ∑ i ∈ Finset.univ.filter (fun i : Fin n =>
          (idx (ix2 i (0 : Fin 2))).toInt = (p.val : Int) ∧ (idx (ix2 i (1 : Fin 2))).toInt = (q.val : Int)), upd (ix1 i) :=
  scatterAdd_pair_apply wf x idx upd p q

end Idealize.ShloMosaic.PointScatter

end
-- ==== Proof.RefNllRead.lean ====
import proofs.«422824_j5205500363383_3_alg».proof.Proof.RefNll
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StackMember
import proofs.«422824_j5205500363383_3_alg».proof.Proof.LibRowGather
import proofs.«422824_j5205500363383_3_alg».proof.Proof.LibPointScatter
import proofs.«422824_j5205500363383_3_alg».proof.Proof.LibRowMax
import proofs.«422824_j5205500363383_3_alg».proof.Proof.LibRowOps

noncomputable section

open scoped BigOperators

namespace Cert.ReferenceIdeal.RefNll

open Cert.ReferenceIdeal Cert.ReferenceIdeal.Gen Cert.RowOps Idealize.ShloMosaic Idealize.ShloMosaic.ValueIdx

section Ops
variable {α : Type}

theorem hostSqrt_apply {s : Shape} {φ : FTy} (x : FVec Ideal s φ) (i : s.Idx) : Host.sqrt x i = Ideal.sqrt (x i) := rfl
theorem hostLog_apply {s : Shape} {φ : FTy} (x : FVec Ideal s φ) (i : s.Idx) : Host.log x i = Ideal.log (x i) := rfl
theorem hostNegf_apply {s : Shape} {φ : FTy} (x : FVec Ideal s φ) (i : s.Idx) : Host.negf x i = -(x i) := rfl
theorem hostDivf_apply {s : Shape} {φ : FTy} (x y : FVec Ideal s φ) (i : s.Idx) : Host.divf x y i = Ideal.div (x i) (y i) := rfl

theorem hostRowMax_apply {a b : ℕ} (x : FVec Ideal ⟨2, ![a, b]⟩ .f32) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := .f32)) x init h' hu (ix1 p)
      = (Finset.univ : Finset (Fin b)).fold max (init (Shape.Idx.first hu)) (fun n => x (ix2 p n)) := by
  show Host.reduce (max : EReal → EReal → EReal) x init h' hu (ix1 p) = _
  rw [Host.reduce_eq_fold_single max x init h' h hu (ix1 p)]
  refine congrArg ((Finset.univ : Finset (Fin b)).fold max _) (funext fun n => congrArg x (funext fun c => Fin.ext ?_))
  show h.liftVal (ix1 p) n.val c = _
  match c with
  | ⟨0, _⟩ => simp [Shape.Reduces.liftVal]
  | ⟨1, _⟩ => simp [Shape.Reduces.liftVal]

end Ops

theorem wnFn_apply (W : FVec Ideal S100000x512 .f32) (j : Fin 100000) (d : Fin 512) :
    wnFn (F := Ideal) W (ix2 j d)
      = Ideal.div (W (ix2 j d))
          (max (Ideal.sqrt (0 + ∑ k : Fin 512, W (ix2 j k) * W (ix2 j k))) (Ideal.ofBits .f32 0x2B8CBCCC#32)) := by
  unfold wnFn
  rw [hostDivf_apply, rows_of_col_apply, maximumf_apply, hostSqrt_apply, col_of_vec_apply, of_scalar_apply,
    rowSum_apply _ _ _ (by decide), constant_apply, constant_apply, Ideal.ofBits_zero_f32]
  rfl

theorem cmpi_apply {s : Shape} {w : ℕ} (p : CmpIPredicate) (a b : IVec s w) (i : s.Idx) :
    cmpi p a b i = IntOp.cmpi p (a i) (b i) := rfl

theorem toInt_of_small (x : BitVec 32) (h : x.toNat < 2147483648) : x.toInt = (x.toNat : Int) :=
  BitVec.toInt_eq_toNat_of_lt (by omega)

theorem cmpi_slt_zero_of_small (x : BitVec 32) (h : x.toNat < 2147483648) : IntOp.cmpi .slt x 0#32 = 0#1 := by
  have hn : x.slt 0#32 = false := by
    rw [Bool.eq_false_iff, Ne, BitVec.slt_iff_toInt_lt, toInt_of_small x h]
    simp
  simp only [IntOp.cmpi, hn]
  rfl

theorem tgWrap_apply (tg : IVec S1024 32) (r : Fin 1024) (h : (tg (ix1 r)).toNat < 2147483648) :
    tgWrap tg (ix1 r) = tg (ix1 r) := by
  unfold tgWrap
  rw [select_apply, cmpi_apply, of_scalar_apply, constantI_apply, cmpi_slt_zero_of_small _ h, select_zero]

theorem rowWrap_apply (r : Fin 1024) : rowWrap (ix1 r) = BitVec.ofNat 32 r.val := by
  unfold rowWrap
  have hs : (BitVec.ofNat 32 r.val).toNat < 2147483648 := by
    rw [BitVec.toNat_ofNat]; have := r.isLt; omega
  rw [select_apply, cmpi_apply, of_scalar_apply, constantI_apply]
  show Scalar.select (IntOp.cmpi .slt (BitVec.ofNat 32 r.val) 0#32) _ (BitVec.ofNat 32 r.val) = _
  rw [cmpi_slt_zero_of_small _ hs, select_zero]

theorem idxCol_apply (tg : IVec S1024 32) (r : Fin 1024) (u : Fin 1) (h : (tg (ix1 r)).toNat < 2147483648) :
    idxCol tg (ix2 r u) = tg (ix1 r) := by
  unfold idxCol
  rw [col_of_vec_apply, tgWrap_apply tg r h]

theorem pairsR_apply_zero (tg : IVec S1024 32) (r : Fin 1024) :
    pairsR tg (ix2 r (0 : Fin 2)) = BitVec.ofNat 32 r.val := by
  unfold pairsR
  rw [concatenate_pair_apply_left (t := S1024x2) (s₁ := S1024x1) (s₂ := S1024x1) (1 : Fin 2) _ _ concatenates_S1024x1_S1024x1_S1024x2_d1 (ix2 r (0 : Fin 2)) rfl
    (ix2 r (0 : Fin 1)) (fun b => match b with | ⟨0, _⟩ => rfl | ⟨1, _⟩ => rfl)]
  rw [col_of_vec_apply, rowWrap_apply]

theorem pairsR_apply_one (tg : IVec S1024 32) (r : Fin 1024) (h : (tg (ix1 r)).toNat < 2147483648) :
    pairsR tg (ix2 r (1 : Fin 2)) = tg (ix1 r) := by
  unfold pairsR
  rw [concatenate_pair_apply_right (t := S1024x2) (s₁ := S1024x1) (s₂ := S1024x1) (1 : Fin 2) _ _ concatenates_S1024x1_S1024x1_S1024x2_d1 (ix2 r (1 : Fin 2)) rfl rfl
    (ix2 r (0 : Fin 1)) (fun b => match b with
      | ⟨0, _⟩ => fun _ => rfl
      | ⟨1, _⟩ => fun hne => absurd rfl hne) rfl]
  rw [col_of_vec_apply, tgWrap_apply tg r h]

section PointGather
variable {α : Type}

abbrev pointDims (P Q n : Nat)
    (wf : GatherDims.WF ⟨2, ![P, Q]⟩ ⟨2, ![n, 2]⟩ ⟨1, ![n]⟩ [] [0, 1] [] [0, 1] [] 1 ![1, 1]) :
    GatherDims ⟨2, ![P, Q]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

theorem gather_points_apply {P Q n w : Nat} (hP : 0 < P) (hQ : 0 < Q)
    (wf : GatherDims.WF ⟨2, ![P, Q]⟩ ⟨2, ![n, 2]⟩ ⟨1, ![n]⟩ [] [0, 1] [] [0, 1] [] 1 ![1, 1])
    (x : (⟨2, ![P, Q]⟩ : Shape).Idx → α) (idx : IVec ⟨2, ![n, 2]⟩ w) (e : Fin n) :
    Host.gather (pointDims P Q n wf) x idx (ix1 e)
      = x (ix2 ⟨min (idx (ix2 e (0 : Fin 2))).toInt.toNat (P - 1), by omega⟩
              ⟨min (idx (ix2 e (1 : Fin 2))).toInt.toNat (Q - 1), by omega⟩) := by
  unfold Host.gather
  congr 1
  funext a
  refine Fin.ext ?_
  have hmem : ∀ a : Fin 2, a ∈ ([0, 1] : List (Fin 2)) := by decide
  have hcoll : ∀ a : Fin 2, a ∉ (pointDims P Q n wf).sKept := fun a h =>
    ((GatherDims.mem_sKept _ _).mp h).1 (hmem a)
  match a with
  | ⟨0, _⟩ =>
    show (pointDims P Q n wf).start (ix1 e) idx 0 + (pointDims P Q n wf).batchCoord (ix1 e) 0
        + (pointDims P Q n wf).offCoord (ix1 e) 0 = _
    rw [GatherDims.batchCoord_eq_zero _ _ _ List.not_mem_nil, GatherDims.offCoord_eq_zero _ _ _ (hcoll 0)]
    simp only [Nat.add_zero]
    unfold GatherDims.start
    rw [dif_pos (show (0 : Fin 2) ∈ (pointDims P Q n wf).startIndexMap from hmem 0)]
    have hsi : (pointDims P Q n wf).siIdx (ix1 e) ⟨List.idxOf (0 : Fin 2) (pointDims P Q n wf).startIndexMap,
        List.idxOf_lt_length_iff.2 (hmem 0)⟩ = ix2 e (0 : Fin 2) := by
      funext b; refine Fin.ext ?_
      match b with
      | ⟨0, _⟩ => rfl
      | ⟨1, _⟩ => rfl
    rw [hsi]
    rfl
  | ⟨1, _⟩ =>
    show (pointDims P Q n wf).start (ix1 e) idx 1 + (pointDims P Q n wf).batchCoord (ix1 e) 1
        + (pointDims P Q n wf).offCoord (ix1 e) 1 = _
    rw [GatherDims.batchCoord_eq_zero _ _ _ List.not_mem_nil, GatherDims.offCoord_eq_zero _ _ _ (hcoll 1)]
    simp only [Nat.add_zero]
    unfold GatherDims.start
    rw [dif_pos (show (1 : Fin 2) ∈ (pointDims P Q n wf).startIndexMap from hmem 1)]
    have hsi : (pointDims P Q n wf).siIdx (ix1 e) ⟨List.idxOf (1 : Fin 2) (pointDims P Q n wf).startIndexMap,
        List.idxOf_lt_length_iff.2 (hmem 1)⟩ = ix2 e (1 : Fin 2) := by
      funext b; refine Fin.ext ?_
      match b with
      | ⟨0, _⟩ => rfl
      | ⟨1, _⟩ => rfl
    rw [hsi]
    rfl

end PointGather

def Sc (xn : FVec Ideal S1024x512 .f32) (W : FVec Ideal S100000x512 .f32) (r : Fin 1024) (j₀ j : Fin 100000) : EReal :=
  ((∑ d : Fin 512, xn (ix2 r d) * Ideal.div (W (ix2 j d))
      (max (Ideal.sqrt (0 + ∑ k : Fin 512, W (ix2 j k) * W (ix2 j k))) (Ideal.ofBits .f32 0x2B8CBCCC#32)))
    + (if j = j₀ then Ideal.ofBits .f32 0xBEB33333#32 else 0)) * Ideal.ofBits .f32 0x42800000#32

theorem ofNat_toInt_of_small (n : ℕ) (h : n < 2147483648) : (BitVec.ofNat 32 n).toInt = (n : Int) := by
  have hn : (BitVec.ofNat 32 n).toNat = n := by rw [BitVec.toNat_ofNat]; omega
  rw [toInt_of_small _ (by omega), hn]

section Row
variable (W : FVec Ideal S100000x512 .f32) (tg : IVec S1024 32) (r : Fin 1024) (htg : (tg (ix1 r)).toNat < 100000)
include htg

theorem clamp_label : min (tg (ix1 r)).toInt.toNat (100000 - 1) = (tg (ix1 r)).toNat := by
  rw [toInt_of_small _ (by omega), Int.toNat_natCast]; omega

theorem wbR_apply (d : Fin 512) :
    wbR (F := Ideal) W tg (ix2 r d)
      = Ideal.div (W (ix2 ⟨(tg (ix1 r)).toNat, htg⟩ d))
          (max (Ideal.sqrt (0 + ∑ k : Fin 512, W (ix2 ⟨(tg (ix1 r)).toNat, htg⟩ k) * W (ix2 ⟨(tg (ix1 r)).toNat, htg⟩ k)))
            (Ideal.ofBits .f32 0x2B8CBCCC#32)) := by
  unfold wbR
  show Host.gather (Cert.Lib.RowGather.rowDims 100000 512 1024 gather_S100000x512_S1024x1_S1024x512_1_0_n_n_0_1_1512_wf)
    (wnFn W) (idxCol tg) (ix2 r d) = _
  rw [Cert.Lib.RowGather.gather_rows_apply (by decide)]
  have hq : ∀ p, (⟨min (idxCol tg (ix2 r (0 : Fin 1))).toInt.toNat (100000 - 1), p⟩ : Fin 100000) = ⟨(tg (ix1 r)).toNat, htg⟩ :=
    fun p => Fin.ext (by
      show min (idxCol tg (ix2 r (0 : Fin 1))).toInt.toNat (100000 - 1) = (tg (ix1 r)).toNat
      rw [idxCol_apply tg r 0 (by omega)]; exact clamp_label tg r htg)
  rw [hq, wnFn_apply]

theorem scatter_pairs_apply (x : FVec Ideal S1024x100000 .f32) (upd : FVec Ideal S1024 .f32) (c : EReal)
    (hupd : ∀ i, upd i = c) (j : Fin 100000) :
    Host.scatterAdd scatter_S1024x100000_S1024x2_S1024_n_01_01_1 x (pairsR tg) upd (ix2 r j)
      = x (ix2 r j) + (if j = ⟨(tg (ix1 r)).toNat, htg⟩ then c else 0) := by
  show Host.scatterAdd (PointScatter.dimsPair 1024 100000 1024 scatter_S1024x100000_S1024x2_S1024_n_01_01_1_wf)
    x (pairsR tg) upd (ix2 r j) = _
  rw [PointScatter.scatterAdd_pair_host]
  congr 1
  rw [Finset.sum_filter, Finset.sum_eq_single r]
  · rw [pairsR_apply_zero, pairsR_apply_one tg r (by omega), hupd, ofNat_toInt_of_small _ (by have := r.isLt; omega),
      toInt_of_small _ (by omega)]
    refine if_congr ⟨fun h => Fin.ext ?_, fun h => ⟨rfl, ?_⟩⟩ rfl rfl
    · have := h.2; show j.val = (tg (ix1 r)).toNat; omega
    · rw [h]
  · intro i _ hne
    rw [if_neg]
    rintro ⟨h0, _⟩
    apply hne
    rw [pairsR_apply_zero, ofNat_toInt_of_small _ (by have := i.isLt; omega)] at h0
    exact Fin.ext (by omega)
  · intro h; exact absurd (Finset.mem_univ r) h

theorem scoresR_apply (xn : FVec Ideal S1024x512 .f32) (j : Fin 100000) :
    scoresR (F := Ideal) xn W tg (ix2 r j) = Sc xn W r ⟨(tg (ix1 r)).toNat, htg⟩ j := by
  unfold scoresR Sc
  rw [mulf_apply, of_scalar_apply, constant_apply,
    scatter_pairs_apply tg r htg _ _ (Ideal.ofBits .f32 0xBEB33333#32) (fun i => by rw [of_scalar_apply, constant_apply])]
  show (Host.dotGeneral (DotDims.plain 1024 512 100000) none xn _ (ix2 r j) + _) * _ = _
  rw [StackMember.dotGeneral_plain_apply]
  refine congrArg (fun t => (t + _) * _) (Finset.sum_congr rfl fun c _ => ?_)
  rw [transpose_ix2_apply, wnFn_apply]

end Row

theorem shiftedR_apply (s : FVec Ideal S1024x100000 .f32) (r : Fin 1024) (j : Fin 100000) :
    shiftedR (F := Ideal) s (ix2 r j)
      = s (ix2 r j) - max ⊥ ((Finset.univ : Finset (Fin 100000)).fold max ⊥ (fun n => s (ix2 r n))) := by
  unfold shiftedR
  rw [subf_apply, rows_of_col_apply, col_of_vec_apply, maximumf_apply, of_scalar_apply, constant_apply,
    hostRowMax_apply _ _ _ (by decide), constant_apply, Cert.RowMax.ofBits_neg_inf_f32]

theorem lsmR_apply (s : FVec Ideal S1024x100000 .f32) (r : Fin 1024) (j : Fin 100000) :
    lsmR (F := Ideal) s (ix2 r j)
      = shiftedR s (ix2 r j) - Ideal.log (0 + ∑ n : Fin 100000, Ideal.exp (shiftedR s (ix2 r n))) := by
  unfold lsmR
  rw [subf_apply, rows_of_col_apply, hostLog_apply, col_of_vec_apply, rowSum_apply _ _ _ (by decide),
    constant_apply, Ideal.ofBits_zero_f32]
  rfl

theorem nllR_apply (xn : FVec Ideal S1024x512 .f32) (W : FVec Ideal S100000x512 .f32) (tg : IVec S1024 32) (r : Fin 1024)
    (htg : (tg (ix1 r)).toNat < 100000) :
    nllR (F := Ideal) xn W tg (ix1 r)
      = -((Sc xn W r ⟨(tg (ix1 r)).toNat, htg⟩ ⟨(tg (ix1 r)).toNat, htg⟩
            - max ⊥ ((Finset.univ : Finset (Fin 100000)).fold max ⊥ (Sc xn W r ⟨(tg (ix1 r)).toNat, htg⟩)))
          - Ideal.log (0 + ∑ j : Fin 100000, Ideal.exp (Sc xn W r ⟨(tg (ix1 r)).toNat, htg⟩ j
              - max ⊥ ((Finset.univ : Finset (Fin 100000)).fold max ⊥ (Sc xn W r ⟨(tg (ix1 r)).toNat, htg⟩))))) := by
  unfold nllR
  rw [hostNegf_apply]
  show -(Host.gather (pointDims 1024 100000 1024 gather_S1024x100000_S1024x2_S1024_n_01_n_n_01_1_11_wf)
    (lsmR (scoresR xn W tg)) (pairsR tg) (ix1 r)) = _
  rw [gather_points_apply (by decide) (by decide)]
  have hq0 : ∀ p, (⟨min (pairsR tg (ix2 r (0 : Fin 2))).toInt.toNat (1024 - 1), p⟩ : Fin 1024) = r :=
    fun p => Fin.ext (by
      show min (pairsR tg (ix2 r (0 : Fin 2))).toInt.toNat (1024 - 1) = r.val
      rw [pairsR_apply_zero, ofNat_toInt_of_small _ (by have := r.isLt; omega), Int.toNat_natCast]
      have := r.isLt; omega)
  have hq1 : ∀ p, (⟨min (pairsR tg (ix2 r (1 : Fin 2))).toInt.toNat (100000 - 1), p⟩ : Fin 100000)
      = ⟨(tg (ix1 r)).toNat, htg⟩ :=
    fun p => Fin.ext (by
      show min (pairsR tg (ix2 r (1 : Fin 2))).toInt.toNat (100000 - 1) = (tg (ix1 r)).toNat
      rw [pairsR_apply_one tg r (by omega)]; exact clamp_label tg r htg)
  rw [hq0, hq1, lsmR_apply]
  simp only [shiftedR_apply, scoresR_apply W tg r htg]

end Cert.ReferenceIdeal.RefNll

end
-- ==== Proof.Bridge.lean ====
import proofs.«422824_j5205500363383_3_alg».proof.Proof.Fold
import proofs.«422824_j5205500363383_3_alg».proof.Proof.Lse
import proofs.«422824_j5205500363383_3_alg».proof.Proof.ScoreMath
import proofs.«422824_j5205500363383_3_alg».proof.Proof.KIStepRead
import proofs.«422824_j5205500363383_3_alg».proof.Proof.KIScoreRead
import proofs.«422824_j5205500363383_3_alg».proof.Proof.RefNll
import proofs.«422824_j5205500363383_3_alg».proof.Proof.RefNllRead
import Idealize.ShloMosaic.Lib.ValueIdx

noncomputable section

open scoped BigOperators

namespace Cert.Bridge

open Cert.Fold Cert.KernelIdeal Cert.KernelIdeal.Gen Cert.KernelIdeal.StepRead Cert.KernelIdeal.ScoreRead
  Cert.ScoreMath Idealize.ShloMosaic Idealize.ShloMosaic.ValueIdx

theorem sweep_congr {κ : Type} [Fintype κ] (s s' : ℕ → κ → EReal) (hit hit' : ℕ → κ → Bool) (n : ℕ)
    (hs : ∀ c ≤ n, s c = s' c) (hh : ∀ c ≤ n, hit c = hit' c) : sweep s hit n = sweep s' hit' n := by
  induction n with
  | zero => rw [sweep_zero, sweep_zero, hs 0 le_rfl, hh 0 le_rfl]
  | succ n ih =>
    rw [sweep_succ, sweep_succ, hs (n + 1) le_rfl, hh (n + 1) le_rfl,
      ih (fun c hc => hs c (Nat.le_succ_of_le hc)) (fun c hc => hh c (Nat.le_succ_of_le hc))]

theorem ref_score_real (x w : Fin 512 → ℝ) (b : Prop) [Decidable b] :
    ((∑ d : Fin 512, ((x d : ℝ) : EReal) * Ideal.div ((w d : ℝ) : EReal)
          (max (Ideal.sqrt (0 + ∑ k : Fin 512, ((w k : ℝ) : EReal) * ((w k : ℝ) : EReal)))
            (Ideal.ofBits .f32 0x2B8CBCCC#32)))
        + (if b then Ideal.ofBits .f32 0xBEB33333#32 else 0)) * Ideal.ofBits .f32 0x42800000#32
      = (((∑ d, x d * (w d / max (Real.sqrt (∑ k, w k * w k)) ((2305843 : ℝ) / 2 ^ 61))
            + (if b then -(11744051 : ℝ) / 2 ^ 25 else 0)) * 64 : ℝ) : EReal) := by
  have hsum : (∑ d : Fin 512, ((x d : ℝ) : EReal) * Ideal.div ((w d : ℝ) : EReal)
        (max (Ideal.sqrt (0 + ∑ k : Fin 512, ((w k : ℝ) : EReal) * ((w k : ℝ) : EReal)))
          (Ideal.ofBits .f32 0x2B8CBCCC#32)))
      = ((∑ d, x d * (w d / max (Real.sqrt (∑ k, w k * w k)) ((2305843 : ℝ) / 2 ^ 61)) : ℝ) : EReal) := by
    rw [coe_sum, eps_val]
    refine Finset.sum_congr rfl fun d _ => ?_
    rw [norm_div_eq w d, ← EReal.coe_mul]
  have hm : (if b then Ideal.ofBits .f32 0xBEB33333#32 else (0 : EReal))
      = (((if b then -(11744051 : ℝ) / 2 ^ 25 else 0 : ℝ)) : EReal) := by
    by_cases hb : b
    · rw [if_pos hb, if_pos hb, margin_val]
    · rw [if_neg hb, if_neg hb, EReal.coe_zero]
  rw [hsum, hm, c64_val, ← EReal.coe_add, ← EReal.coe_mul]

theorem ker_score_real (x w : Fin 512 → ℝ) (b : Prop) [Decidable b] :
    (if b
      then (∑ d : Fin 512, ((x d : ℝ) : EReal) * (((w d : ℝ) : EReal)
              * (Ideal.rsqrt (max (∑ e : Fin 512, ((w e : ℝ) : EReal) * ((w e : ℝ) : EReal))
                    ((5316911940649 / 5316911983139663491615228241121378304 : ℝ) : EReal))
                  * Ideal.ofBits .f32 0x42800000#32)))
            - Ideal.ofBits .f32 0x41B33333#32
      else (∑ d : Fin 512, ((x d : ℝ) : EReal) * (((w d : ℝ) : EReal)
              * (Ideal.rsqrt (max (∑ e : Fin 512, ((w e : ℝ) : EReal) * ((w e : ℝ) : EReal))
                    ((5316911940649 / 5316911983139663491615228241121378304 : ℝ) : EReal))
                  * Ideal.ofBits .f32 0x42800000#32))))
      = (((∑ d, x d * (w d / max (Real.sqrt (∑ k, w k * w k)) ((2305843 : ℝ) / 2 ^ 61))
            + (if b then -(11744051 : ℝ) / 2 ^ 25 else 0)) * 64 : ℝ) : EReal) := by
  rw [epsSq_eq, inv_norm_eq w, c64_val, margin64_val]
  by_cases hb : b
  · rw [if_pos hb, if_pos hb]
    have h := score_eq x w true
    rw [if_pos rfl, if_pos rfl] at h
    exact h
  · rw [if_neg hb, if_neg hb]
    have h := score_eq x w false
    rw [if_neg Bool.false_ne_true, if_neg Bool.false_ne_true] at h
    exact h

theorem word_hit (t : BitVec 32) (i c k : ℕ) (hi : i < 2) (hc : c < 50) (hk : k < 1000) (ht : t.toNat < 100000) :
    BitVec.ofNat 32 k = t - (BitVec.ofNat 32 i * 50000#32 + BitVec.ofNat 32 c * 1000#32)
      ↔ i * 50000 + c * 1000 + k = t.toNat := by
  rw [BitVec.toNat_eq]
  simp only [BitVec.toNat_sub, BitVec.toNat_add, BitVec.toNat_mul, BitVec.toNat_ofNat]
  omega

def col (j : ℕ) : Fin 100000 := ⟨min j 99999, by omega⟩

theorem col_of_lt {j : ℕ} (h : j < 100000) : col j = ⟨j, h⟩ :=
  Fin.ext (min_eq_left (by omega))

def rowScore (x : Fin 512 → ℝ) (w : Fin 100000 → Fin 512 → ℝ) (t : ℕ) (j : ℕ) : ℝ :=
  (∑ d, x d * (w (col j) d / max (Real.sqrt (∑ k, w (col j) k * w (col j) k)) ((2305843 : ℝ) / 2 ^ 61))
    + (if j = t then -(11744051 : ℝ) / 2 ^ 25 else 0)) * 64

theorem col_val (j : Fin 100000) : col j.val = j :=
  Fin.ext (min_eq_left (by have := j.isLt; omega))

theorem hit_col (tg : IVec S1024 32) (r : Fin 1024) (htg : (tg (ix1 r)).toNat < 100000)
    (tgc : Vec Ideal S1024x1 .i32) (htgc : tgc (ix2 r 0) = tg (ix1 r))
    (g : grid0.Coords) (i : Fin 2) (c : ℕ) (hc : c < 50) (hg : (g 0).val = i.val ∧ (g 1).val = c) (k : Fin 1000) :
    k0_pay10 (F := Ideal) g tgc (ix2 r k) = 1#1 ↔ i.val * 50000 + c * 1000 + k.val = (tg (ix1 r)).toNat := by
  rw [hit_iff, htgc, hg.1, hg.2]
  exact word_hit _ _ _ _ i.isLt hc k.isLt htg

theorem tile_score_real (xn : FVec Ideal S1024x512 .f32) (W : FVec Ideal S100000x512 .f32) (tg : IVec S1024 32)
    (xr : S1024x512.Idx → ℝ) (hxr : ∀ i, xn i = ((xr i : ℝ) : EReal))
    (Wr : S100000x512.Idx → ℝ) (hWr : ∀ i, W i = ((Wr i : ℝ) : EReal))
    (r : Fin 1024) (htg : (tg (ix1 r)).toNat < 100000)
    (w : Vec Ideal S1000x512 .f32) (i : Fin 2) (c : ℕ) (hc : c < 50)
    (hw : ∀ (k : Fin 1000) (d : Fin 512), w (ix2 k d) = W (ix2 ⟨i.val * 50000 + c * 1000 + k.val, by omega⟩ d))
    (xb : Vec Ideal S1024x512 .bf16) (hxb : ∀ idx, xb idx = xn idx)
    (tgc : Vec Ideal S1024x1 .i32) (htgc : tgc (ix2 r 0) = tg (ix1 r))
    (g : grid0.Coords) (hg : (g 0).val = i.val ∧ (g 1).val = c) (k : Fin 1000) :
    tileScore g w xb tgc r k = ((rowScore (fun d => xr (ix2 r d)) (fun j d => Wr (ix2 j d)) (tg (ix1 r)).toNat (i.val * 50000 + c * 1000 + k.val) : ℝ) : EReal) := by
  have hj : i.val * 50000 + c * 1000 + k.val < 100000 := by omega
  unfold tileScore
  rw [score_closed]
  simp only [hxb, hxr, hw, hWr]
  rw [ker_score_real (fun d => xr (ix2 r d)) (fun d => Wr (ix2 ⟨i.val * 50000 + c * 1000 + k.val, hj⟩ d)) _,
    rowScore, col_of_lt hj, if_congr (hit_col tg r htg tgc htgc g i c hc hg k) rfl rfl]

theorem ref_col_real (xn : FVec Ideal S1024x512 .f32) (W : FVec Ideal S100000x512 .f32)
    (xr : S1024x512.Idx → ℝ) (hxr : ∀ i, xn i = ((xr i : ℝ) : EReal))
    (Wr : S100000x512.Idx → ℝ) (hWr : ∀ i, W i = ((Wr i : ℝ) : EReal))
    (r : Fin 1024) (t : ℕ) (ht : t < 100000) (j : Fin 100000) :
    ((∑ d : Fin 512, xn (ix2 r d) * Ideal.div (W (ix2 j d))
          (max (Ideal.sqrt (0 + ∑ k : Fin 512, W (ix2 j k) * W (ix2 j k))) (Ideal.ofBits .f32 0x2B8CBCCC#32)))
        + (if j = (⟨t, ht⟩ : Fin 100000) then Ideal.ofBits .f32 0xBEB33333#32 else 0)) * Ideal.ofBits .f32 0x42800000#32
      = ((rowScore (fun d => xr (ix2 r d)) (fun j d => Wr (ix2 j d)) t j.val : ℝ) : EReal) := by
  simp only [hxr, hWr]
  rw [ref_score_real (fun d => xr (ix2 r d)) (fun d => Wr (ix2 j d)) _, rowScore, col_val j,
    if_congr (Fin.ext_iff (a := j) (b := ⟨t, ht⟩)) rfl rfl]

theorem row_nll (xn : FVec Ideal S1024x512 .f32) (W : FVec Ideal S100000x512 .f32) (tg : IVec S1024 32)
    (hx : ∀ i, ∃ a : ℝ, xn i = ((a : ℝ) : EReal)) (hW : ∀ i, ∃ a : ℝ, W i = ((a : ℝ) : EReal))
    (r : Fin 1024) (htg : (tg (ix1 r)).toNat < 100000)
    (wblk : Fin 2 → ℕ → Vec Ideal S1000x512 .f32)
    (hw : ∀ (i : Fin 2) (c : ℕ) (hc : c < 50) (k : Fin 1000) (d : Fin 512),
      wblk i c (ix2 k d) = W (ix2 ⟨i.val * 50000 + c * 1000 + k.val, by omega⟩ d))
    (xb : Vec Ideal S1024x512 .bf16) (hxb : ∀ idx, xb idx = xn idx)
    (tgc : Vec Ideal S1024x1 .i32) (htgc : tgc (ix2 r 0) = tg (ix1 r))
    (co : Fin 2 → ℕ → grid0.Coords)
    (hco : ∀ (i : Fin 2) (c : ℕ), c < 50 → ((co i c) 0).val = i.val ∧ ((co i c) 1).val = c) :
    joinNll
        (sweep (fun c k => tileScore (co 0 c) (wblk 0 c) xb tgc r k) (fun c k => tileHit (co 0 c) tgc r k) 49)
        (sweep (fun c k => tileScore (co 1 c) (wblk 1 c) xb tgc r k) (fun c k => tileHit (co 1 c) tgc r k) 49)
      = Cert.ReferenceIdeal.RefNll.nllR (F := Ideal) xn W tg (ix1 r) := by
  choose xr hxr using hx
  choose Wr hWr using hW
  have hker : ∀ (i : Fin 2) (c : ℕ), c < 50 → ∀ k : Fin 1000,
      tileScore (co i c) (wblk i c) xb tgc r k = ((rowScore (fun d => xr (ix2 r d)) (fun j d => Wr (ix2 j d)) (tg (ix1 r)).toNat (i.val * 50000 + c * 1000 + k.val) : ℝ) : EReal) :=
    fun i c hc k => tile_score_real xn W tg xr hxr Wr hWr r htg (wblk i c) i c hc (hw i c hc) xb hxb tgc htgc
      (co i c) (hco i c hc) k
  have hhit : ∀ (i : Fin 2) (c : ℕ) (k : Fin 1000), c < 50 →
      (tileHit (co i c) tgc r k = true
        ↔ i.val * 50000 + c * 1000 + k.val = (⟨(tg (ix1 r)).toNat, htg⟩ : Fin 100000).val) := by
    intro i c k hc
    unfold tileHit
    rw [decide_eq_true_iff]
    exact hit_col tg r htg tgc htgc (co i c) i c hc (hco i c hc) k
  have e0 := sweep_congr (fun c k => tileScore (co 0 c) (wblk 0 c) xb tgc r k)
    (fun c (k : Fin 1000) => ((rowScore (fun d => xr (ix2 r d)) (fun j d => Wr (ix2 j d)) (tg (ix1 r)).toNat (0 * 50000 + c * 1000 + k.val) : ℝ) : EReal))
    (fun c k => tileHit (co 0 c) tgc r k) (fun c k => tileHit (co 0 c) tgc r k) 49
    (fun c hc => funext fun k => hker 0 c (by omega) k) (fun _ _ => rfl)
  have e1 := sweep_congr (fun c k => tileScore (co 1 c) (wblk 1 c) xb tgc r k)
    (fun c (k : Fin 1000) => ((rowScore (fun d => xr (ix2 r d)) (fun j d => Wr (ix2 j d)) (tg (ix1 r)).toNat (1 * 50000 + c * 1000 + k.val) : ℝ) : EReal))
    (fun c k => tileHit (co 1 c) tgc r k) (fun c k => tileHit (co 1 c) tgc r k) 49
    (fun c hc => funext fun k => hker 1 c (by omega) k) (fun _ _ => rfl)
  rw [e0, e1]
  refine (Cert.Lse.nll_eq (rowScore (fun d => xr (ix2 r d)) (fun j d => Wr (ix2 j d)) (tg (ix1 r)).toNat)
    ⟨(tg (ix1 r)).toNat, htg⟩ (fun i c k => tileHit (co i c) tgc r k) hhit).trans ?_
  rw [Cert.ReferenceIdeal.RefNll.nllR_apply xn W tg r htg]
  have hSc : Cert.ReferenceIdeal.RefNll.Sc xn W r ⟨(tg (ix1 r)).toNat, htg⟩
      = fun j : Fin 100000 => (((rowScore (fun d => xr (ix2 r d)) (fun j d => Wr (ix2 j d)) (tg (ix1 r)).toNat) j.val : ℝ) : EReal) :=
    funext fun j => by
      unfold Cert.ReferenceIdeal.RefNll.Sc
      exact ref_col_real xn W xr hxr Wr hWr r (tg (ix1 r)).toNat htg j
  rw [hSc]

end Cert.Bridge

end
-- ==== Proof.KIWbRead.lean ====
import proofs.«422824_j5205500363383_3_alg».proof.Proof.KITailDefs
import proofs.«422824_j5205500363383_3_alg».proof.Proof.LibRowGather
import proofs.«422824_j5205500363383_3_alg».proof.Proof.LibRowOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.WbRead

open Cert.KernelIdeal Cert.KernelIdeal.TailVal Cert.RowOps Idealize.ShloMosaic Idealize.ShloMosaic.ValueIdx

theorem toInt_of_lt {w : BitVec 32} (h : w.toNat < 100000) : w.toInt = (w.toNat : Int) := by
  rw [BitVec.toInt_eq_toNat_cond, if_pos (by omega)]

theorem label_word {w : BitVec 32} (h : w.toNat < 100000) :
    Scalar.select (IntOp.cmpi .slt w 0#32) (IntOp.addi w 100000#32) w = w := by
  have hs : w.slt 0#32 = false := by
    rw [Bool.eq_false_iff, Ne, BitVec.slt_iff_toInt_lt, toInt_of_lt h, show (0#32 : BitVec 32).toInt = 0 from by decide]
    omega
  have hc : IntOp.cmpi .slt w 0#32 = 0#1 := by
    show BitVec.ofBool (w.slt 0#32) = 0#1
    rw [hs]; rfl
  unfold Scalar.select
  rw [hc, if_neg (by decide)]

theorem clamp_label {w : BitVec 32} (h : w.toNat < 100000) : min w.toInt.toNat (100000 - 1) = w.toNat := by
  rw [toInt_of_lt h, Int.toNat_natCast]
  omega

variable {α : Type}

theorem idxCol_apply (tg : IVec S1024 32) (r : Fin 1024) (htg : (tg (ix1 r)).toNat < 100000) (u : Fin 1) :
    idxCol tg (ix2 r u) = tg (ix1 r) := by
  unfold idxCol
  rw [col_of_vec_apply]
  exact label_word htg

theorem gathered_apply (X : S100000x512.Idx → α) (tg : IVec S1024 32) (r : Fin 1024) (d : Fin 512)
    (htg : (tg (ix1 r)).toNat < 100000) :
    Host.gather gather_S100000x512_S1024x1_S1024x512_1_0_n_n_0_1_1512 X (idxCol tg) (ix2 r d)
      = X (ix2 (⟨(tg (ix1 r)).toNat, htg⟩ : Fin 100000) d) := by
  have e := Cert.Lib.RowGather.gather_rows_apply (N := 100000) (C := 512) (R := 1024) (by decide)
    gather_S100000x512_S1024x1_S1024x512_1_0_n_n_0_1_1512.wf X (idxCol tg) r d
  refine e.trans (congrArg X ?_)
  congr 1
  refine Fin.ext ?_
  show min (idxCol tg (ix2 r 0)).toInt.toNat (100000 - 1) = (tg (ix1 r)).toNat
  rw [idxCol_apply tg r htg 0]
  exact clamp_label htg

theorem wbK_apply (W : FVec Ideal S100000x512 .f32) (tg : IVec S1024 32) (r : Fin 1024) (d : Fin 512)
    (htg : (tg (ix1 r)).toNat < 100000) :
    wbK (F := Ideal) W tg (ix2 r d)
      = Ideal.div (W (ix2 (⟨(tg (ix1 r)).toNat, htg⟩ : Fin 100000) d))
          (max (Ideal.sqrt (0 + ∑ k : Fin 512, W (ix2 (⟨(tg (ix1 r)).toNat, htg⟩ : Fin 100000) k)
              * W (ix2 (⟨(tg (ix1 r)).toNat, htg⟩ : Fin 100000) k)))
            (Ideal.ofBits .f32 0x2B8CBCCC#32)) := by
  have hg : ∀ k : Fin 512, Host.gather gather_S100000x512_S1024x1_S1024x512_1_0_n_n_0_1_1512 W (idxCol tg) (ix2 r k)
      = W (ix2 (⟨(tg (ix1 r)).toNat, htg⟩ : Fin 100000) k) := fun k => gathered_apply W tg r k htg
  have hsum : Host.reduceAdd
        (mulf (Host.gather gather_S100000x512_S1024x1_S1024x512_1_0_n_n_0_1_1512 W (idxCol tg))
          (Host.gather gather_S100000x512_S1024x1_S1024x512_1_0_n_n_0_1_1512 W (idxCol tg)))
        (constant (F := Ideal) S_ .f32 0x00000000#32) Gen.reducesTo_S1024x512_S1024_d1 Gen.h_S_ (ix1 r)
      = 0 + ∑ k : Fin 512, W (ix2 (⟨(tg (ix1 r)).toNat, htg⟩ : Fin 100000) k)
          * W (ix2 (⟨(tg (ix1 r)).toNat, htg⟩ : Fin 100000) k) := by
    rw [rowSum_apply _ _ _ (by decide)]
    show Ideal.ofBits .f32 0x00000000#32 + _ = _
    rw [Ideal.ofBits_zero_f32]
    exact congrArg (0 + ·) (Finset.sum_congr rfl fun k _ => by rw [mulf_apply, hg k])
  unfold wbK
  show Ideal.div (Host.gather gather_S100000x512_S1024x1_S1024x512_1_0_n_n_0_1_1512 W (idxCol tg) (ix2 r d))
      (broadcastInDim (s := S1024x1) S1024x512 ![0, 1] _ _ (ix2 r d)) = _
  rw [rows_of_col_apply, hg d]
  show Ideal.div _ (max (Ideal.sqrt (broadcastInDim (s := S1024) S1024x1 ![0] _ _ (ix2 r (0 : Fin 1))))
      (broadcastInDim (s := S_) S1024x1 ![] _ _ (ix2 r (0 : Fin 1)))) = _
  rw [col_of_vec_apply, of_scalar_apply, hsum]
  rfl

end Cert.KernelIdeal.WbRead

end
-- ==== Proof.XnRead.lean ====
import proofs.«422824_j5205500363383_3_alg».proof.Proof.KITailDefs
import proofs.«422824_j5205500363383_3_alg».proof.Proof.KIWbRead
import proofs.«422824_j5205500363383_3_alg».proof.Proof.ScoreMath
import Idealize.ShloMosaic.Lib.ValueIdx
import Idealize.ShloMosaic.PureOps.Ideal.Laws

noncomputable section

open scoped BigOperators

namespace Cert.KernelIdeal.XnRead

open Cert.KernelIdeal Cert.KernelIdeal.TailVal Idealize.ShloMosaic Idealize.ShloMosaic.ValueIdx

theorem sumsq_apply (x : FVec Ideal S1024x512 .f32) (r : Fin 1024) :
    Host.reduceAdd (mulf x x) (constant (F := Ideal) S_ .f32 0x00000000#32) Gen.reducesTo_S1024x512_S1024_d1 Gen.h_S_ (ix1 r)
      = 0 + ∑ k : Fin 512, x (ix2 r k) * x (ix2 r k) := by
  rw [Cert.RowOps.rowSum_apply _ _ _ (by decide)]
  show Ideal.ofBits .f32 0x00000000#32 + _ = _
  rw [Ideal.ofBits_zero_f32]
  rfl

theorem floored_apply (v : FVec Ideal S1024 .f32) (e : FVec Ideal S_ .f32) (r : Fin 1024) (u : Fin 1) :
    maximumf (Host.sqrt (broadcastInDim S1024x1 ![0] Gen.bcast_S1024_S1024x1_0 v))
        (broadcastInDim S1024x1 ![] Gen.bcast_S_S1024x1 e) (ix2 r u)
      = max (Ideal.sqrt (v (ix1 r))) (e ix0) := by
  show max (Ideal.sqrt (broadcastInDim S1024x1 ![0] Gen.bcast_S1024_S1024x1_0 v (ix2 r u)))
      (broadcastInDim S1024x1 ![] Gen.bcast_S_S1024x1 e (ix2 r u)) = _
  rw [Cert.RowOps.col_of_vec_apply, Cert.RowOps.of_scalar_apply]

theorem div_col_apply (x : FVec Ideal S1024x512 .f32) (col : FVec Ideal S1024x1 .f32) (r : Fin 1024) (d : Fin 512) :
    Host.divf x (broadcastInDim S1024x512 ![0, 1] Gen.bcast_S1024x1_S1024x512_0_1 col) (ix2 r d)
      = Ideal.div (x (ix2 r d)) (col (ix2 r (0 : Fin 1))) :=
  congrArg (Ideal.div (x (ix2 r d))) (Cert.RowOps.rows_of_col_apply Gen.bcast_S1024x1_S1024x512_0_1 col r d)

theorem xnFn_apply (x : FVec Ideal S1024x512 .f32) (r : Fin 1024) (d : Fin 512) :
    xnFn (F := Ideal) x (ix2 r d)
      = Ideal.div (x (ix2 r d))
          (max (Ideal.sqrt (0 + ∑ k : Fin 512, x (ix2 r k) * x (ix2 r k))) (Ideal.ofBits .f32 0x2B8CBCCC#32)) := by
  unfold xnFn
  refine (div_col_apply x _ r d).trans (congrArg (Ideal.div (x (ix2 r d))) ?_)
  refine (floored_apply _ _ r 0).trans ?_
  rw [sumsq_apply]
  rfl

theorem xnFn_real (x : FVec Ideal S1024x512 .f32) (hx : ∀ i, ∃ a : ℝ, x i = ((a : ℝ) : EReal)) :
    ∀ i, ∃ a : ℝ, xnFn (F := Ideal) x i = ((a : ℝ) : EReal) := by
  intro i
  obtain ⟨r, d, rfl⟩ : ∃ (r : Fin 1024) (d : Fin 512), i = ix2 r d := ⟨i 0, i 1, eq_ix2 i⟩
  choose a ha using hx
  refine ⟨a (ix2 r d) / max (Real.sqrt (∑ k : Fin 512, a (ix2 r k) * a (ix2 r k))) ((2305843 : ℝ) / 2 ^ 61), ?_⟩
  rw [xnFn_apply, Cert.ScoreMath.eps_val]
  simp only [ha]
  exact Cert.ScoreMath.norm_div_eq (fun k => a (ix2 r k)) d

end Cert.KernelIdeal.XnRead

end
-- ==== Proof.NllEq.lean ====
import proofs.«422824_j5205500363383_3_alg».proof.Proof.KIFinal
import proofs.«422824_j5205500363383_3_alg».proof.Proof.KIValueOf
import proofs.«422824_j5205500363383_3_alg».proof.Proof.KIAccum
import proofs.«422824_j5205500363383_3_alg».proof.Proof.KIBlocks
import proofs.«422824_j5205500363383_3_alg».proof.Proof.Bridge
import proofs.«422824_j5205500363383_3_alg».proof.Proof.XnRead

set_option maxRecDepth 16384

noncomputable section

namespace Cert.NllEq

open Idealize.ShloMosaic Idealize.ShloMosaic.TcCoe Idealize.ShloMosaic.ValueIdx Idealize.SL.Sem
open Cert.KernelIdeal Cert.KernelIdeal.Gen Cert.KernelIdeal.TailVal Cert.KernelIdeal.StepRead Cert.Fold

variable (m : (ℓ : Loc nD τ sig) → Buf (Elt Ideal) ℓ) (c : Dev nD)

abbrev argX : FVec Ideal S1024x512 .f32 := m ((c.tc : Thread nD τ).loc main_arg0)

abbrev argT : IVec S1024 32 := m ((c.tc : Thread nD τ).loc main_arg1)

abbrev argW : FVec Ideal S100000x512 .f32 := m ((c.tc : Thread nD τ).loc main_arg2)

theorem xarr_apply (idx : S1024x512.Idx) : xarr m c idx = xnFn (F := Ideal) (argX m c) idx :=
  congrFun ((V_main_v8 m c).trans (truncf_id (xnFn (F := Ideal) (argX m c)))) idx

theorem tarr_apply (r : Fin 1024) : tarr m c (ix2 r 0) = argT m c (ix1 r) :=
  (congrFun (V_main_v9 m c) (ix2 r 0)).trans (col_apply (argT m c) r)

theorem warr_eq : warr m c = argW m c := V_main_arg m 2 c

theorem halves_join (hx : ∀ i, ∃ a : ℝ, argX m c i = ((a : ℝ) : EReal)) (hW : ∀ i, ∃ a : ℝ, argW m c i = ((a : ℝ) : EReal))
    (r : Fin 1024) (htg : (argT m c (ix1 r)).toNat < 100000)
    (P : Fin 2 → ℕ → Fin cfg0.N) (hP : ∀ (i : Fin 2) (c' : ℕ), c' < 50 → (P i c').val = i.val * 50 + c') :
    joinNll
        (sweep (fun c' k => tileScore (grid0.coords (P 0 c')) (wblk m c (P 0 c')) (xarr m c) (tarr m c) r k)
          (fun c' k => tileHit (grid0.coords (P 0 c')) (tarr m c) r k) 49)
        (sweep (fun c' k => tileScore (grid0.coords (P 1 c')) (wblk m c (P 1 c')) (xarr m c) (tarr m c) r k)
          (fun c' k => tileHit (grid0.coords (P 1 c')) (tarr m c) r k) 49)
      = Cert.ReferenceIdeal.RefNll.nllR (F := Ideal) (xnFn (F := Ideal) (argX m c)) (argW m c) (argT m c) (ix1 r) := by
  refine Cert.Bridge.row_nll (xnFn (F := Ideal) (argX m c)) (argW m c) (argT m c) (Cert.KernelIdeal.XnRead.xnFn_real (argX m c) hx) hW r htg
    (fun i c' => wblk m c (P i c')) ?_ (xarr m c) (xarr_apply m c) (tarr m c) (tarr_apply m c r)
    (fun i c' => grid0.coords (P i c')) ?_
  · intro i c' hc k d
    have hp := hP i c' hc
    refine (wblk_apply m c (P i c') k d).trans ?_
    rw [warr_eq]
    refine congrArg (fun j : Fin 100000 => argW m c (ix2 j d)) (Fin.ext ?_)
    show (P i c').val / 50 * 50000 + (P i c').val % 50 * 1000 + k.val = i.val * 50000 + c' * 1000 + k.val
    have hi := i.isLt
    rw [hp]
    omega
  · intro i c' hc
    have hp := hP i c' hc
    obtain ⟨e0, e1⟩ := coords_val (P i c')
    have hi := i.isLt
    rw [e0, e1, hp]
    constructor <;> omega

theorem half_sweep (h : Fin 2) (hn : h.val * 50 + 49 < cfg0.N) (r : Fin 1024) :
    ((outsAt0 (F := Ideal) m c (h.val * 50 + 49) hn).1 (ix3 (0 : Fin 1) r (0 : Fin 1)),
      (outsAt0 (F := Ideal) m c (h.val * 50 + 49) hn).2.1 (ix3 (0 : Fin 1) r (0 : Fin 1)),
      (outsAt0 (F := Ideal) m c (h.val * 50 + 49) hn).2.2.1 (ix3 (0 : Fin 1) r (0 : Fin 1)))
      = sweep
          (fun c' k => tileScore (grid0.coords (Accum.pt (h.val * 50 + c'))) (wblk m c (Accum.pt (h.val * 50 + c')))
            (xarr m c) (tarr m c) r k)
          (fun c' k => tileHit (grid0.coords (Accum.pt (h.val * 50 + c'))) (tarr m c) r k) 49 := by
  have o := Accum.outs_row m c (h.val * 50 + 49) hn (by omega) r
  dsimp only at o
  have hq : (h.val * 50 + 49) / 50 = h.val := by omega
  rw [hq] at o
  have hsc : Accum.sc m c r h.val
      = fun c' k => tileScore (grid0.coords (Accum.pt (h.val * 50 + c'))) (wblk m c (Accum.pt (h.val * 50 + c')))
          (xarr m c) (tarr m c) r k := by
    funext c' k
    rw [Accum.sc_apply]
    show tileScore _ (wblk m c (Accum.pt (h.val * 50 + c'))) (xblk m c (Accum.pt (h.val * 50 + c')))
      (tblk m c (Accum.pt (h.val * 50 + c'))) r k = _
    rw [xblk_eq, tblk_eq]
  have hht : Accum.ht m c r h.val
      = fun c' k => tileHit (grid0.coords (Accum.pt (h.val * 50 + c'))) (tarr m c) r k := by
    funext c' k
    rw [Accum.ht_apply]
    show tileHit _ (tblk m c (Accum.pt (h.val * 50 + c'))) r k = _
    rw [tblk_eq]
  rw [hsc, hht] at o
  exact o

theorem nll_row (o3 o4 o5 : FVec Ideal S2x1024x1 .f32) (r : Fin 1024)
    (h3 : ∀ (h : Fin 2) (hn : h.val * 50 + 49 < cfg0.N),
      o3 (ix3 h r (0 : Fin 1)) = (outsAt0 (F := Ideal) m c (h.val * 50 + 49) hn).1 (ix3 (0 : Fin 1) r (0 : Fin 1)))
    (h4 : ∀ (h : Fin 2) (hn : h.val * 50 + 49 < cfg0.N),
      o4 (ix3 h r (0 : Fin 1)) = (outsAt0 (F := Ideal) m c (h.val * 50 + 49) hn).2.1 (ix3 (0 : Fin 1) r (0 : Fin 1)))
    (h5 : ∀ (h : Fin 2) (hn : h.val * 50 + 49 < cfg0.N),
      o5 (ix3 h r (0 : Fin 1)) = (outsAt0 (F := Ideal) m c (h.val * 50 + 49) hn).2.2.1 (ix3 (0 : Fin 1) r (0 : Fin 1)))
    (hx : ∀ i, ∃ a : ℝ, argX m c i = ((a : ℝ) : EReal)) (hW : ∀ i, ∃ a : ℝ, argW m c i = ((a : ℝ) : EReal))
    (htg : (argT m c (ix1 r)).toNat < 100000) :
    nllK (F := Ideal) o3 o4 o5 (ix1 r)
      = Cert.ReferenceIdeal.RefNll.nllR (F := Ideal) (xnFn (F := Ideal) (argX m c)) (argW m c) (argT m c) (ix1 r) := by
  have hN : cfg0.N = 100 := N_0
  have hn0 : (0 : Fin 2).val * 50 + 49 < cfg0.N := by rw [hN]; decide
  have hn1 : (1 : Fin 2).val * 50 + 49 < cfg0.N := by rw [hN]; decide
  rw [nllK_apply, h3 0 hn0, h4 0 hn0, h5 0 hn0, h3 1 hn1, h4 1 hn1, h5 1 hn1, half_sweep m c 0 hn0 r,
    half_sweep m c 1 hn1 r]
  refine halves_join m c hx hW r htg (fun i c' => Accum.pt (i.val * 50 + c')) fun i c' hc => ?_
  have hi := i.isLt
  exact congrArg Fin.val (Accum.pt_of_lt (i.val * 50 + c') (by rw [hN]; omega))

theorem nll_eq_ref (m : (ℓ : Loc nD τ sig) → Buf (Elt Ideal) ℓ) (c : Dev nD)
    (hx : ∀ i, ∃ a : ℝ, (m ((c.tc : Thread nD τ).loc main_arg0)) i = ((a : ℝ) : EReal))
    (hW : ∀ i, ∃ a : ℝ, (m ((c.tc : Thread nD τ).loc main_arg2)) i = ((a : ℝ) : EReal))
    (htg : ∀ i, ((m ((c.tc : Thread nD τ).loc main_arg1)) i).toNat < 100000) :
    Cert.KernelIdeal.TailVal.nllK (F := Ideal) (A3 m c) (A4 m c) (A5 m c)
      = Cert.ReferenceIdeal.RefNll.nllR (F := Ideal)
          (Cert.KernelIdeal.TailVal.xnFn (F := Ideal) (m ((c.tc : Thread nD τ).loc main_arg0)))
          (m ((c.tc : Thread nD τ).loc main_arg2)) (m ((c.tc : Thread nD τ).loc main_arg1)) := by
  funext idx
  obtain ⟨r, rfl⟩ : ∃ r : Fin 1024, idx = ix1 r := ⟨idx 0, eq_ix1 idx⟩
  exact nll_row m c (A3 m c) (A4 m c) (A5 m c) r (fun h hn => A3_apply m c h r hn) (fun h hn => A4_apply m c h r hn)
    (fun h hn => A5_apply m c h r hn) hx hW (htg (ix1 r))

end Cert.NllEq

end
-- ==== Proof.WbEq.lean ====
import proofs.«422824_j5205500363383_3_alg».proof.Proof.KIWbRead
import proofs.«422824_j5205500363383_3_alg».proof.Proof.RefNllRead

noncomputable section

namespace Cert.WbEq

open Idealize.ShloMosaic Idealize.ShloMosaic.ValueIdx

theorem wb_eq (W : FVec Ideal Cert.KernelIdeal.S100000x512 .f32) (tg : IVec Cert.KernelIdeal.S1024 32)
    (htg : ∀ i, (tg i).toNat < 100000) :
    Cert.KernelIdeal.TailVal.wbK (F := Ideal) W tg = Cert.ReferenceIdeal.RefNll.wbR (F := Ideal) W tg := by
  funext idx
  obtain ⟨r, d, rfl⟩ : ∃ (r : Fin 1024) (d : Fin 512), idx = ix2 r d := ⟨idx 0, idx 1, eq_ix2 idx⟩
  rw [Cert.KernelIdeal.WbRead.wbK_apply W tg r d (htg (ix1 r))]
  exact (Cert.ReferenceIdeal.RefNll.wbR_apply W tg r (htg (ix1 r)) d).symm

end Cert.WbEq

end
-- ==== Proof.RefValDefs.lean ====
import proofs.«422824_j5205500363383_3_alg».proof.Proof.RefNll

noncomputable section

namespace Cert.ReferenceIdeal.RefVal

open Cert.ReferenceIdeal Cert.ReferenceIdeal.Gen Cert.ReferenceIdeal.RefNll Idealize.ShloMosaic

variable {F : FTy → Type} [FloatOps F]

def xnFn (x : FVec F S1024x512 .f32) : FVec F S1024x512 .f32 :=
  Host.divf x
    (broadcastInDim S1024x512 ![0, 1] bcast_S1024x1_S1024x512_0_1
      (maximumf
        (Host.sqrt (broadcastInDim S1024x1 ![0] bcast_S1024_S1024x1_0
          (Host.reduceAdd (mulf x x) (constant (F := F) S_ .f32 0x00000000#32) reducesTo_S1024x512_S1024_d1 h_S_)))
        (broadcastInDim S1024x1 ![] bcast_S_S1024x1 (constant (F := F) S_ .f32 0x2B8CBCCC#32))))

def btR (B : FVec F S100000x512 .f32) (tg : IVec S1024 32) : FVec F S1024x512 .f32 :=
  Host.gather gather_S100000x512_S1024x1_S1024x512_1_0_n_n_0_1_1512 B (idxCol tg)

def disc (xn wb bt : FVec F S1024x512 .f32) : FVec F S_ .f32 :=
  let nb : FVec F S1024x1 .f32 :=
    Host.sqrt (broadcastInDim S1024x1 ![0] bcast_S1024_S1024x1_0
      (Host.reduceAdd (mulf bt bt) (constant (F := F) S_ .f32 0x00000000#32) reducesTo_S1024x512_S1024_d1 h_S_))
  let clip : FVec F S1024x1 .f32 :=
    minimumf (broadcastInDim S1024x1 ![] bcast_S_S1024x1 (constant (F := F) S_ .f32 0x3D4CCCCD#32))
      (maximumf (broadcastInDim S1024x1 ![] bcast_S_S1024x1 (constant (F := F) S_ .f32 0x00000000#32)) nb)
  let bn : FVec F S1024x512 .f32 :=
    Host.divf bt (broadcastInDim S1024x512 ![0, 1] bcast_S1024x1_S1024x512_0_1
      (maximumf nb (broadcastInDim S1024x1 ![] bcast_S_S1024x1 (constant (F := F) S_ .f32 0x2B8CBCCC#32))))
  let r : FVec F S1024x512 .f32 :=
    subf (subf xn wb) (mulf bn (broadcastInDim S1024x512 ![0, 1] bcast_S1024x1_S1024x512_0_1 clip))
  Host.divf
    (Host.reduceAdd
      (Host.sqrt (Host.reduceAdd (mulf r r) (constant (F := F) S_ .f32 0x00000000#32) reducesTo_S1024x512_S1024_d1 h_S_))
      (constant (F := F) S_ .f32 0x00000000#32) reducesTo_S1024_S_d0 h_S_)
    (constant (F := F) S_ .f32 0x44800000#32)

def focal (nll : FVec F S1024 .f32) : FVec F S_ .f32 :=
  let mu : FVec F S_ .f32 :=
    Host.divf (Host.reduceAdd nll (constant (F := F) S_ .f32 0x00000000#32) reducesTo_S1024_S_d0 h_S_)
      (constant (F := F) S_ .f32 0x44800000#32)
  let q : FVec F S_ .f32 := subf (constant (F := F) S_ .f32 0x3F800000#32) (Host.exp (Host.negf mu))
  mulf (mulf q q) mu

def fin (d f : FVec F S_ .f32) : FVec F S1 .f32 :=
  broadcastInDim S1 ![] bcast_S_S1 (addf (mulf (constant (F := F) S_ .f32 0x3ECCCCCD#32) d) f)

end Cert.ReferenceIdeal.RefVal

end
-- ==== Proof.SameFns.lean ====
import proofs.«422824_j5205500363383_3_alg».proof.Proof.KITailDefs
import proofs.«422824_j5205500363383_3_alg».proof.Proof.RefValDefs

noncomputable section

namespace Cert.Same

open Idealize.ShloMosaic

theorem xnFn_eq (x : FVec Ideal Cert.KernelIdeal.S1024x512 .f32) :
    Cert.KernelIdeal.TailVal.xnFn (F := Ideal) x = Cert.ReferenceIdeal.RefVal.xnFn (F := Ideal) x := rfl

theorem btK_eq (B : FVec Ideal Cert.KernelIdeal.S100000x512 .f32) (tg : IVec Cert.KernelIdeal.S1024 32) :
    Cert.KernelIdeal.TailVal.btK (F := Ideal) B tg = Cert.ReferenceIdeal.RefVal.btR (F := Ideal) B tg := rfl

theorem disc_eq (xn wb bt : FVec Ideal Cert.KernelIdeal.S1024x512 .f32) :
    Cert.KernelIdeal.TailVal.disc (F := Ideal) xn wb bt = Cert.ReferenceIdeal.RefVal.disc (F := Ideal) xn wb bt := rfl

theorem focal_eq (nll : FVec Ideal Cert.KernelIdeal.S1024 .f32) :
    Cert.KernelIdeal.TailVal.focal (F := Ideal) nll = Cert.ReferenceIdeal.RefVal.focal (F := Ideal) nll := rfl

theorem fin_eq (d f : FVec Ideal Cert.KernelIdeal.S_ .f32) :
    Cert.KernelIdeal.TailVal.fin (F := Ideal) d f = Cert.ReferenceIdeal.RefVal.fin (F := Ideal) d f := rfl

end Cert.Same

end
-- ==== Proof.RefLsm.lean ====
import proofs.«422824_j5205500363383_3_alg».proof.Proof.RefRunP
import proofs.«422824_j5205500363383_3_alg».proof.Proof.RefNll
import Idealize.ShloMosaic.Lib.StableHlo.Run

noncomputable section

namespace Cert.ReferenceIdeal.RefLsm

open Cert.ReferenceIdeal Cert.ReferenceIdeal.Gen Cert.ReferenceIdeal.RefNll Idealize.ShloMosaic Idealize.ShloMosaic.TcCoe Idealize.SL.Sem Idealize.ShloMosaic.StableHlo

variable {F : FTy → Type} [FloatOps F]

theorem ofBuf_toBuf {sig : RefSig} {Val : EltTy → Type} {T : BufTy} (x : TRef sig T) (v : T.Contents Val) :
    x.ofBuf (x.toBuf v) = v := by
  obtain ⟨r, h, h1, h2⟩ := x
  subst h
  rfl

abbrev lsmOps : List (HloOp τ sig (Elt F)) :=
  [ TRef.nullary (TRef.of (T := ⟨S_, .f32⟩) main_call1_cst) (constant S_ .f32 0xFF800000#32),
    TRef.binary (TRef.of (T := ⟨S1024x100000, .f32⟩) main_v67) (TRef.of (T := ⟨S_, .f32⟩) main_call1_cst) (TRef.of (T := ⟨S1024, .f32⟩) main_call1_v0) (fun x v => Host.reduce FloatOps.maximumf x v reducesTo_S1024x100000_S1024_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1024, .f32⟩) main_call1_v1) (broadcastInDim S1024 ![] bcast_S_S1024),
    TRef.binary (TRef.of (T := ⟨S1024, .f32⟩) main_call1_v1) (TRef.of (T := ⟨S1024, .f32⟩) main_call1_v0) (TRef.of (T := ⟨S1024, .f32⟩) main_call1_v2) maximumf,
    TRef.unary (TRef.of (T := ⟨S1024, .f32⟩) main_call1_v2) (TRef.of (T := ⟨S1024x1, .f32⟩) main_call1_v3) (broadcastInDim S1024x1 ![0] bcast_S1024_S1024x1_0),
    TRef.unary (TRef.of (T := ⟨S1024x1, .f32⟩) main_call1_v3) (TRef.of (T := ⟨S1024x100000, .f32⟩) main_call1_v4) (broadcastInDim S1024x100000 ![0, 1] bcast_S1024x1_S1024x100000_0_1),
    TRef.binary (TRef.of (T := ⟨S1024x100000, .f32⟩) main_v67) (TRef.of (T := ⟨S1024x100000, .f32⟩) main_call1_v4) (TRef.of (T := ⟨S1024x100000, .f32⟩) main_call1_v5) subf,
    TRef.unary (TRef.of (T := ⟨S1024x100000, .f32⟩) main_call1_v5) (TRef.of (T := ⟨S1024x100000, .f32⟩) main_call1_v6) Host.exp,
    TRef.nullary (TRef.of (T := ⟨S_, .f32⟩) main_call1_cst_1) (constant S_ .f32 0x00000000#32),
    TRef.binary (TRef.of (T := ⟨S1024x100000, .f32⟩) main_call1_v6) (TRef.of (T := ⟨S_, .f32⟩) main_call1_cst_1) (TRef.of (T := ⟨S1024, .f32⟩) main_call1_v7) (fun x v => Host.reduceAdd x v reducesTo_S1024x100000_S1024_d1 h_S_),
    TRef.unary (TRef.of (T := ⟨S1024, .f32⟩) main_call1_v7) (TRef.of (T := ⟨S1024x1, .f32⟩) main_call1_v8) (broadcastInDim S1024x1 ![0] bcast_S1024_S1024x1_0),
    TRef.unary (TRef.of (T := ⟨S1024x1, .f32⟩) main_call1_v8) (TRef.of (T := ⟨S1024x1, .f32⟩) main_call1_v9) Host.log,
    TRef.unary (TRef.of (T := ⟨S1024x1, .f32⟩) main_call1_v9) (TRef.of (T := ⟨S1024x100000, .f32⟩) main_call1_v10) (broadcastInDim S1024x100000 ![0, 1] bcast_S1024x1_S1024x100000_0_1),
    TRef.binary (TRef.of (T := ⟨S1024x100000, .f32⟩) main_call1_v5) (TRef.of (T := ⟨S1024x100000, .f32⟩) main_call1_v10) (TRef.of (T := ⟨S1024x100000, .f32⟩) main_v68) subf ]

set_option maxRecDepth 8192 in
theorem lsm_stretch (V : Valuation τ sig (Elt F)) :
    after lsmOps V (Proc.devRef .tc main_v68) = lsmR (V (Proc.devRef .tc main_v67)) := by
  after_results_simp
  simp only [ofBuf_toBuf]
  rfl

end Cert.ReferenceIdeal.RefLsm

end
-- ==== Proof.RefVal.lean ====
import proofs.«422824_j5205500363383_3_alg».proof.Proof.RefRunP
import proofs.«422824_j5205500363383_3_alg».proof.Proof.RefNll
import proofs.«422824_j5205500363383_3_alg».proof.Proof.RefValDefs
import proofs.«422824_j5205500363383_3_alg».proof.Proof.RefLsm
import Idealize.ShloMosaic.Lib.StableHlo.Run

noncomputable section

namespace Cert.ReferenceIdeal.RefVal

open Cert.ReferenceIdeal Cert.ReferenceIdeal.Gen Cert.ReferenceIdeal.ValueP Cert.ReferenceIdeal.RefNll Idealize.ShloMosaic Idealize.ShloMosaic.TcCoe Idealize.SL.Sem Idealize.ShloMosaic.StableHlo

variable {F : FTy → Type} [FloatOps F]

theorem after_concat (l₁ l₂ : List (HloOp τ sig (Elt F))) (V : Valuation τ sig (Elt F)) :
    after (l₁ ++ l₂) V = after l₂ (after l₁ V) := by
  induction l₁ generalizing V with
  | nil => rfl
  | cons op l ih => exact ih _

def cA : List (HloOp τ sig (Elt F)) := (ops (F := F)).take 10

def cB : List (HloOp τ sig (Elt F)) := ((ops (F := F)).drop 10).take 10

def cC : List (HloOp τ sig (Elt F)) := ((ops (F := F)).drop 20).take 48

def cD : List (HloOp τ sig (Elt F)) := ((ops (F := F)).drop 68).take 19

def cE : List (HloOp τ sig (Elt F)) := ((ops (F := F)).drop 87).take 7

def cF : List (HloOp τ sig (Elt F)) := ((ops (F := F)).drop 94).take 15

def cG : List (HloOp τ sig (Elt F)) := ((ops (F := F)).drop 109).take 16

def cH : List (HloOp τ sig (Elt F)) := ((ops (F := F)).drop 125).take 3

def cI : List (HloOp τ sig (Elt F)) := ((ops (F := F)).drop 128).take 10

def cJ : List (HloOp τ sig (Elt F)) := (ops (F := F)).drop 138

set_option maxRecDepth 8192 in
theorem ops_split : (ops (F := F)) = cA ++ (cB ++ (cC ++ (cD ++ (cE ++ (cF ++ (cG ++ (cH ++ (cI ++ cJ)))))))) := rfl

local macro "open_stretch" : tactic =>
  `(tactic| simp only [cA, cB, cC, cD, cE, cF, cG, cH, cI, cJ, ops, List.take_succ_cons, List.take_zero, List.drop_succ_cons, List.drop_zero])

section
variable (V : Valuation τ sig (Elt F))

set_option maxRecDepth 8192 in
theorem cA_v7 : after cA V (Proc.devRef .tc main_v7) = xnFn (V (Proc.devRef .tc main_arg0)) := by
  open_stretch; after_results_simp; rfl
set_option maxRecDepth 8192 in
theorem cA_arg1 : after cA V (Proc.devRef .tc main_arg1) = V (Proc.devRef .tc main_arg1) := by
  open_stretch; after_results_simp
set_option maxRecDepth 8192 in
theorem cA_arg2 : after cA V (Proc.devRef .tc main_arg2) = V (Proc.devRef .tc main_arg2) := by
  open_stretch; after_results_simp
set_option maxRecDepth 8192 in
theorem cA_arg3 : after cA V (Proc.devRef .tc main_arg3) = V (Proc.devRef .tc main_arg3) := by
  open_stretch; after_results_simp

set_option maxRecDepth 8192 in
theorem cB_v15 : after cB V (Proc.devRef .tc main_v15) = wnFn (V (Proc.devRef .tc main_arg2)) := by
  open_stretch; after_results_simp; rfl
set_option maxRecDepth 8192 in
theorem cB_v7 : after cB V (Proc.devRef .tc main_v7) = V (Proc.devRef .tc main_v7) := by
  open_stretch; after_results_simp
set_option maxRecDepth 8192 in
theorem cB_arg1 : after cB V (Proc.devRef .tc main_arg1) = V (Proc.devRef .tc main_arg1) := by
  open_stretch; after_results_simp
set_option maxRecDepth 8192 in
theorem cB_arg3 : after cB V (Proc.devRef .tc main_arg3) = V (Proc.devRef .tc main_arg3) := by
  open_stretch; after_results_simp

set_option maxRecDepth 8192 in
theorem cC_v47 : after cC V (Proc.devRef .tc main_v47)
    = disc (V (Proc.devRef .tc main_v7))
        (Host.gather gather_S100000x512_S1024x1_S1024x512_1_0_n_n_0_1_1512 (V (Proc.devRef .tc main_v15)) (idxCol (V (Proc.devRef .tc main_arg1))))
        (btR (V (Proc.devRef .tc main_arg3)) (V (Proc.devRef .tc main_arg1))) := by
  open_stretch; after_results_simp; rfl
set_option maxRecDepth 8192 in
theorem cC_v7 : after cC V (Proc.devRef .tc main_v7) = V (Proc.devRef .tc main_v7) := by
  open_stretch; after_results_simp
set_option maxRecDepth 8192 in
theorem cC_v15 : after cC V (Proc.devRef .tc main_v15) = V (Proc.devRef .tc main_v15) := by
  open_stretch; after_results_simp
set_option maxRecDepth 8192 in
theorem cC_arg1 : after cC V (Proc.devRef .tc main_arg1) = V (Proc.devRef .tc main_arg1) := by
  open_stretch; after_results_simp

set_option maxRecDepth 8192 in
theorem cD_v49 : after cD V (Proc.devRef .tc main_v49)
    = Host.dotGeneral dot_S1024x512_S512x100000_S1024x100000_1_0_0_1_n_n none (V (Proc.devRef .tc main_v7))
        (transpose S512x100000 [1, 0] (V (Proc.devRef .tc main_v15)) transposes_S100000x512_S512x100000_1_0) := by
  open_stretch; after_results_simp
set_option maxRecDepth 8192 in
theorem cD_v50 : after cD V (Proc.devRef .tc main_v50) = iotaInDim S1024 32 0 := by
  open_stretch; after_results_simp
set_option maxRecDepth 8192 in
theorem cD_v61 : after cD V (Proc.devRef .tc main_v61) = broadcastInDim S1024x1 ![0] bcast_S1024_S1024x1_0 rowWrap := by
  open_stretch; after_results_simp; rfl
set_option maxRecDepth 8192 in
theorem cD_v62 : after cD V (Proc.devRef .tc main_v62)
    = broadcastInDim S1024x1 ![0] bcast_S1024_S1024x1_0 (tgWrap (V (Proc.devRef .tc main_arg1))) := by
  open_stretch; after_results_simp; rfl
set_option maxRecDepth 8192 in
theorem cD_arg1 : after cD V (Proc.devRef .tc main_arg1) = V (Proc.devRef .tc main_arg1) := by
  open_stretch; after_results_simp
set_option maxRecDepth 8192 in
theorem cD_v47 : after cD V (Proc.devRef .tc main_v47) = V (Proc.devRef .tc main_v47) := by
  open_stretch; after_results_simp

set_option maxRecDepth 8192 in
theorem cE_v67 : after cE V (Proc.devRef .tc main_v67)
    = mulf
        (Host.scatterAdd scatter_S1024x100000_S1024x2_S1024_n_01_01_1 (V (Proc.devRef .tc main_v49))
          (concatenate S1024x2 1 [⟨S1024x1, V (Proc.devRef .tc main_v61)⟩, ⟨S1024x1, V (Proc.devRef .tc main_v62)⟩]
            concatenates_S1024x1_S1024x1_S1024x2_d1)
          (broadcastInDim S1024 ![] bcast_S_S1024 (constant (F := F) S_ .f32 0xBEB33333#32)))
        (broadcastInDim S1024x100000 ![] bcast_S_S1024x100000 (constant (F := F) S_ .f32 0x42800000#32)) := by
  open_stretch; after_results
set_option maxRecDepth 8192 in
theorem cE_v50 : after cE V (Proc.devRef .tc main_v50) = V (Proc.devRef .tc main_v50) := by
  open_stretch; after_results_simp
set_option maxRecDepth 8192 in
theorem cE_arg1 : after cE V (Proc.devRef .tc main_arg1) = V (Proc.devRef .tc main_arg1) := by
  open_stretch; after_results_simp
set_option maxRecDepth 8192 in
theorem cE_v47 : after cE V (Proc.devRef .tc main_v47) = V (Proc.devRef .tc main_v47) := by
  open_stretch; after_results_simp

set_option maxRecDepth 8192 in
theorem cF_v68 : after cF V (Proc.devRef .tc main_v68) = lsmR (V (Proc.devRef .tc main_v67)) := by
  open_stretch; exact RefLsm.lsm_stretch V
set_option maxRecDepth 8192 in
theorem cF_v50 : after cF V (Proc.devRef .tc main_v50) = V (Proc.devRef .tc main_v50) := by
  open_stretch; after_results_simp
set_option maxRecDepth 8192 in
theorem cF_arg1 : after cF V (Proc.devRef .tc main_arg1) = V (Proc.devRef .tc main_arg1) := by
  open_stretch; after_results_simp
set_option maxRecDepth 8192 in
theorem cF_v47 : after cF V (Proc.devRef .tc main_v47) = V (Proc.devRef .tc main_v47) := by
  open_stretch; after_results_simp

set_option maxRecDepth 8192 in
theorem cG_v79 : after cG V (Proc.devRef .tc main_v79)
    = broadcastInDim S1024x1 ![0] bcast_S1024_S1024x1_0
        (select (cmpi .slt (V (Proc.devRef .tc main_v50)) (broadcastInDim S1024 ![] bcast_S_S1024 (constantI S_ 32 0#32)))
          (addi (V (Proc.devRef .tc main_v50)) (broadcastInDim S1024 ![] bcast_S_S1024 (constantI S_ 32 1024#32)))
          (V (Proc.devRef .tc main_v50))) := by
  open_stretch; after_results_simp
set_option maxRecDepth 8192 in
theorem cG_v80 : after cG V (Proc.devRef .tc main_v80)
    = broadcastInDim S1024x1 ![0] bcast_S1024_S1024x1_0 (tgWrap (V (Proc.devRef .tc main_arg1))) := by
  open_stretch; after_results_simp; rfl
set_option maxRecDepth 8192 in
theorem cG_v68 : after cG V (Proc.devRef .tc main_v68) = V (Proc.devRef .tc main_v68) := by
  open_stretch; after_results_simp
set_option maxRecDepth 8192 in
theorem cG_v47 : after cG V (Proc.devRef .tc main_v47) = V (Proc.devRef .tc main_v47) := by
  open_stretch; after_results_simp

set_option maxRecDepth 8192 in
theorem cH_v83 : after cH V (Proc.devRef .tc main_v83)
    = Host.negf (Host.gather gather_S1024x100000_S1024x2_S1024_n_01_n_n_01_1_11 (V (Proc.devRef .tc main_v68))
        (concatenate S1024x2 1 [⟨S1024x1, V (Proc.devRef .tc main_v79)⟩, ⟨S1024x1, V (Proc.devRef .tc main_v80)⟩]
          concatenates_S1024x1_S1024x1_S1024x2_d1)) := by
  open_stretch; after_results
set_option maxRecDepth 8192 in
theorem cH_v47 : after cH V (Proc.devRef .tc main_v47) = V (Proc.devRef .tc main_v47) := by
  open_stretch; after_results_simp

set_option maxRecDepth 8192 in
theorem cI_v90 : after cI V (Proc.devRef .tc main_v90) = focal (V (Proc.devRef .tc main_v83)) := by
  open_stretch; after_results_simp; rfl
set_option maxRecDepth 8192 in
theorem cI_v47 : after cI V (Proc.devRef .tc main_v47) = V (Proc.devRef .tc main_v47) := by
  open_stretch; after_results_simp

set_option maxRecDepth 8192 in
theorem cJ_v93 : after cJ V (Proc.devRef .tc main_v93)
    = fin (V (Proc.devRef .tc main_v47)) (V (Proc.devRef .tc main_v90)) := by
  open_stretch; after_results_simp; rfl

end

set_option maxRecDepth 8192 in
theorem val_v93 (V : Valuation τ sig (Elt F)) :
    after ops V (Proc.devRef .tc main_v93)
      = fin (disc (xnFn (V (Proc.devRef .tc main_arg0)))
                (wbR (V (Proc.devRef .tc main_arg2)) (V (Proc.devRef .tc main_arg1)))
                (btR (V (Proc.devRef .tc main_arg3)) (V (Proc.devRef .tc main_arg1))))
            (focal (nllR (xnFn (V (Proc.devRef .tc main_arg0))) (V (Proc.devRef .tc main_arg2)) (V (Proc.devRef .tc main_arg1)))) := by
  rw [ops_split]
  simp only [after_concat]
  rw [cJ_v93, cI_v90, cI_v47, cH_v83, cH_v47, cG_v79, cG_v80, cG_v68, cG_v47, cF_v68, cF_v50, cF_arg1, cF_v47,
    cE_v67, cE_v50, cE_arg1, cE_v47, cD_v49, cD_v50, cD_v61, cD_v62, cD_arg1, cD_v47, cC_v47, cC_v7, cC_v15, cC_arg1,
    cB_v15, cB_v7, cB_arg1, cB_arg3, cA_v7, cA_arg1, cA_arg2, cA_arg3]
  rfl

set_option maxRecDepth 8192 in
set_option maxHeartbeats 4000000 in
theorem keep_arg0 (V : Valuation τ sig (Elt F)) : after ops V (Proc.devRef .tc main_arg0) = V (Proc.devRef .tc main_arg0) := by
  after_results_simp
set_option maxRecDepth 8192 in
set_option maxHeartbeats 4000000 in
theorem keep_arg1 (V : Valuation τ sig (Elt F)) : after ops V (Proc.devRef .tc main_arg1) = V (Proc.devRef .tc main_arg1) := by
  after_results_simp
set_option maxRecDepth 8192 in
set_option maxHeartbeats 4000000 in
theorem keep_arg2 (V : Valuation τ sig (Elt F)) : after ops V (Proc.devRef .tc main_arg2) = V (Proc.devRef .tc main_arg2) := by
  after_results_simp
set_option maxRecDepth 8192 in
set_option maxHeartbeats 4000000 in
theorem keep_arg3 (V : Valuation τ sig (Elt F)) : after ops V (Proc.devRef .tc main_arg3) = V (Proc.devRef .tc main_arg3) := by
  after_results_simp

set_option maxRecDepth 8192 in
theorem ops_fresh : (ops : List (HloOp τ sig (Elt F))).Forall fun op => op.fresh = ∅ := by
  simp only [List.Forall]; repeat' constructor

theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93)
        = fin (disc (xnFn (m ((c.tc : Thread nD τ).loc main_arg0))) (wbR (m ((c.tc : Thread nD τ).loc main_arg2)) (m ((c.tc : Thread nD τ).loc main_arg1))) (btR (m ((c.tc : Thread nD τ).loc main_arg3)) (m ((c.tc : Thread nD τ).loc main_arg1))))
              (focal (nllR (xnFn (m ((c.tc : Thread nD τ).loc main_arg0))) (m ((c.tc : Thread nD τ).loc main_arg2)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v93).trans (val_v93 (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c))⟩)
    (run_seq scopedRefs_eq scopedSems_eq defs main (fun _ => ops) main_eq (fun _ => ops_sub) m ρ
      (fun _ => List.forall_iff_forall_mem.1 ops_fresh))

end Cert.ReferenceIdeal.RefVal

end
-- ==== Proof.PreFacts.lean ====
import proofs.«422824_j5205500363383_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

instance subsingleton_S_ : Subsingleton S_.Idx := ⟨fun a b => funext fun d => d.elim0⟩

theorem ofBits_inf : Ideal.ofBits .f32 0x7F800000#32 = ⊤ := by simp [Ideal.ofBits, Ideal.ieee]

theorem real_of_abs_lt_top (a : EReal) (h : Ideal.cmp .olt (max a (-a)) ⊤ = 1#1) : ∃ r : ℝ, a = ((r : ℝ) : EReal) := by
  have hlt : max a (-a) < ⊤ := by
    by_contra hn
    simp [Ideal.cmp, hn] at h
  induction a using EReal.rec with
  | bot => simp at hlt
  | coe r => exact ⟨r, rfl⟩
  | top => simp at hlt

theorem real_of_all {s : Shape} {axes : List (Fin s.rank)} (a : FVec Ideal s .f32) (hb : S_.BroadcastsInDim s (![] : Fin 0 → Fin s.rank))
    (hr : s.ReducesTo axes S_) (h0 : 0 < S_.numel)
    (e : Host.reduce IntOp.andi (cmpf .olt (Host.absf a) (broadcastInDim s ![] hb (constant S_ .f32 0x7F800000#32)))
      (constantI S_ 1 1#1) hr h0 ValueIdx.ix0 = 1#1) (i : s.Idx) : ∃ r : ℝ, a i = ((r : ℝ) : EReal) := by
  have hi := Host.reduce_andi_all _ _ hr h0 ValueIdx.ix0 e i
  apply real_of_abs_lt_top
  rw [← ofBits_inf]
  exact hi

variable [Cert.Pre_finite_inputs.Facts]

theorem of_pre (x : FVec Ideal S1024x512 .f32) (tg : IVec S1024 32) (W B : FVec Ideal S100000x512 .f32)
    (h : Cert.Pre_finite_inputs.fn (F := Ideal) x tg W B = fun _ => 1#1) :
    (∀ i, ∃ r : ℝ, x i = ((r : ℝ) : EReal)) ∧ (∀ i, ∃ r : ℝ, W i = ((r : ℝ) : EReal)) ∧ (∀ i, ∃ r : ℝ, B i = ((r : ℝ) : EReal))
      ∧ (∀ i, 0 ≤ (tg i).toInt ∧ (tg i).toInt < 100000) := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨real_of_all x _ _ _ h1, real_of_all W _ _ _ h2, real_of_all B _ _ _ h3, fun i => ⟨?_, ?_⟩⟩
  · have hge : IntOp.cmpi .sge (tg i) 0#32 = 1#1 := Host.reduce_andi_all _ _ _ _ ValueIdx.ix0 h4 i
    have := IntOp.cmpi_sge.1 hge
    rwa [show (0#32 : BitVec 32).toInt = 0 from by decide] at this
  · have hlt : IntOp.cmpi .slt (tg i) 100000#32 = 1#1 := Host.reduce_andi_all _ _ _ _ ValueIdx.ix0 h5 i
    have := IntOp.cmpi_slt.1 hlt
    rwa [show (100000#32 : BitVec 32).toInt = 100000 from by decide] at this

theorem toNat_lt_of_pre (x : FVec Ideal S1024x512 .f32) (tg : IVec S1024 32) (W B : FVec Ideal S100000x512 .f32)
    (h : Cert.Pre_finite_inputs.fn (F := Ideal) x tg W B = fun _ => 1#1) (i : S1024.Idx) : (tg i).toNat < 100000 := by
  obtain ⟨h0, h1⟩ := (of_pre x tg W B h).2.2.2 i
  have hnat : ((tg i).toNat : Int) = (tg i).toInt := by
    rw [BitVec.toInt_eq_toNat_cond] at h0 ⊢
    split at h0 <;> rename_i hc
    · rw [if_pos hc]
    · exfalso; have := (tg i).isLt; omega
  omega

end Cert.PreFacts

end
-- ==== Proof.lean ====
/- A tiled cross-entropy kernel against its reference, over the extended reals: both return 0.4·d + f, with d a mean row
   distance and f = (1 − e^(−μ))²·μ for μ the mean negative log-likelihood. The kernel folds the classes tile by tile into a
   running (maximum, normaliser, label score) per row; a running maximum with the normaliser Σ e^(s − m) stands for Σ e^s. -/
import proofs.«422824_j5205500363383_3_alg».proof.Defs
import proofs.«422824_j5205500363383_3_alg».proof.Proof.Gen.Kernel
import proofs.«422824_j5205500363383_3_alg».proof.Proof.Gen.KernelIdeal
import proofs.«422824_j5205500363383_3_alg».proof.Proof.Gen.ReferenceIdeal
import proofs.«422824_j5205500363383_3_alg».proof.Proof.Gen.Pre_finite_inputs
import proofs.«422824_j5205500363383_3_alg».proof.Proof.KFrame
import proofs.«422824_j5205500363383_3_alg».proof.Proof.KIValue
import proofs.«422824_j5205500363383_3_alg».proof.Proof.NllEq
import proofs.«422824_j5205500363383_3_alg».proof.Proof.WbEq
import proofs.«422824_j5205500363383_3_alg».proof.Proof.SameFns
import proofs.«422824_j5205500363383_3_alg».proof.Proof.RefVal
import proofs.«422824_j5205500363383_3_alg».proof.Proof.PreFacts
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Gen.frame (F := Bits) m ρ

theorem frame_ki [Cert.KernelIdeal.Facts] [Cert.Pre_finite_inputs.Facts] : Cert.frame_KernelIdeal :=
  fun m ρ _ => Cert.KernelIdeal.Gen.frame (F := Ideal) m ρ

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.RefVal.run_val (F := Ideal) m ρ)

theorem preserves : Cert.preserves_Kernel_KernelIdeal :=
  IdealRules.named_const.statement Cert.KernelIdeal.κ "eps_ref_sq" .f32 0x179ABE15#32
    ((5316911940649 / 5316911983139663491615228241121378304 : ℝ) : EReal) rfl

theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.ReferenceIdeal.RefVal.fin (F := Ideal)
      (Cert.ReferenceIdeal.RefVal.disc (F := Ideal)
        (Cert.ReferenceIdeal.RefVal.xnFn (F := Ideal) (m ((c.tc : Thread Cert.KernelIdeal.nD Cert.KernelIdeal.τ).loc Cert.KernelIdeal.main_arg0)))
        (Cert.ReferenceIdeal.RefNll.wbR (F := Ideal) (m ((c.tc : Thread Cert.KernelIdeal.nD Cert.KernelIdeal.τ).loc Cert.KernelIdeal.main_arg2))
          (m ((c.tc : Thread Cert.KernelIdeal.nD Cert.KernelIdeal.τ).loc Cert.KernelIdeal.main_arg1)))
        (Cert.ReferenceIdeal.RefVal.btR (F := Ideal) (m ((c.tc : Thread Cert.KernelIdeal.nD Cert.KernelIdeal.τ).loc Cert.KernelIdeal.main_arg3))
          (m ((c.tc : Thread Cert.KernelIdeal.nD Cert.KernelIdeal.τ).loc Cert.KernelIdeal.main_arg1))))
      (Cert.ReferenceIdeal.RefVal.focal (F := Ideal)
        (Cert.ReferenceIdeal.RefNll.nllR (F := Ideal)
          (Cert.ReferenceIdeal.RefVal.xnFn (F := Ideal) (m ((c.tc : Thread Cert.KernelIdeal.nD Cert.KernelIdeal.τ).loc Cert.KernelIdeal.main_arg0)))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg1)))), ?_, ?_⟩
  ·
    refine (θ_run Cert.KernelIdeal.defs _ _).mono (fun r h c => ⟨(h c).1.trans ?_, (h c).2⟩)
      (Cert.KernelIdeal.Gen.value_run (F := Ideal) m ρ)
    obtain ⟨hx, hW, -, htg⟩ := Cert.PreFacts.of_pre _ _ _ _ (hpre c)
    have htgN : ∀ i, ((m ((c.tc : Thread Cert.KernelIdeal.nD Cert.KernelIdeal.τ).loc Cert.KernelIdeal.main_arg1)) i).toNat < 100000 :=
      Cert.PreFacts.toNat_lt_of_pre _ _ _ _ (hpre c)
    rw [Cert.NllEq.nll_eq_ref m c hx hW htgN, Cert.WbEq.wb_eq _ _ htgN, Cert.Same.xnFn_eq, Cert.Same.btK_eq,
      Cert.Same.disc_eq, Cert.Same.focal_eq, Cert.Same.fin_eq]
  ·
    refine (θ_run Cert.ReferenceIdeal.defs _ _).mono (fun r h c => ⟨(h c).1.trans ?_, (h c).2⟩)
      (Cert.ReferenceIdeal.RefVal.run_val (F := Ideal) m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
